-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v77)) (v2 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_v115) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x100000 : Shape := ⟨2, ![2, 100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) (main_arg6 : FVec F S128x64 .f32) (main_arg7 : FVec F S64 .f32) (main_arg8 : IVec S2x100000 32) (main_arg9 : IVec S2x100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x100000 : Shape := ⟨2, ![2, 100000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x128 : Shape := ⟨2, ![1, 128]⟩
abbrev S100000x1 : Shape := ⟨2, ![100000, 1]⟩
abbrev S5000x1 : Shape := ⟨2, ![5000, 1]⟩
abbrev S1600000x64 : Shape := ⟨2, ![1600000, 64]⟩
abbrev S1x64 : Shape := ⟨2, ![1, 64]⟩
abbrev S1x100000 : Shape := ⟨2, ![1, 100000]⟩
abbrev S1x1 : Shape := ⟨2, ![1, 1]⟩
abbrev S5000 : Shape := ⟨1, ![5000]⟩
abbrev S1 : Shape := ⟨1, ![1]⟩

abbrev nBuf : Space → Nat
  | .hbm => 150
  | .vmem => 53
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S2x100000, .i32⟩
  | 9 => ⟨S2x100000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S100000, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S1x128, .f32⟩
  | 62 => ⟨S100000x1, .f32⟩
  | 63 => ⟨S100000x128, .f32⟩
  | 64 => ⟨S100000x64, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S1600000x1, .f32⟩
  | 75 => ⟨S1600000x64, .f32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S1x64, .f32⟩
  | 82 => ⟨S100000x1, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S1600000x1, .f32⟩
  | 95 => ⟨S1600000x64, .f32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S1x64, .f32⟩
  | 102 => ⟨S100000x1, .f32⟩
  | 103 => ⟨S100000x64, .f32⟩
  | 104 => ⟨S1x100000, .i32⟩
  | 105 => ⟨S100000, .i32⟩
  | 106 => ⟨S1x100000, .i32⟩
  | 107 => ⟨S100000, .i32⟩
  | 108 => ⟨S1x100000, .i32⟩
  | 109 => ⟨S100000, .i32⟩
  | 110 => ⟨S1x100000, .i32⟩
  | 111 => ⟨S100000, .i32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x64, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x64, .f32⟩

abbrev hbmTy0_1 (i : Nat) : BufTy := match i % 128 with
  | 0 => ⟨S100000x1, .i32⟩
  | 1 => ⟨S100000x64, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x64, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x64, .f32⟩
  | 20 => ⟨S1x1, .f32⟩
  | 21 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S1x1, .f32⟩
  | .local _ .vmem, ⟨51, _⟩ => ⟨S1x1, .f32⟩
  | .local _ .vmem, ⟨52, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_14 : Ref sig .tc := ⟨.hbm, 112, rfl⟩
abbrev main_v86 : Ref sig .tc := ⟨.hbm, 113, rfl⟩
abbrev main_v87 : Ref sig .tc := ⟨.hbm, 114, rfl⟩
abbrev main_c_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_16 : Ref sig .tc := ⟨.hbm, 121, rfl⟩
abbrev main_v93 : Ref sig .tc := ⟨.hbm, 122, rfl⟩
abbrev main_v94 : Ref sig .tc := ⟨.hbm, 123, rfl⟩
abbrev main_c_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_18 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_20 : Ref sig .tc := ⟨.hbm, 139, rfl⟩
abbrev main_v107 : Ref sig .tc := ⟨.hbm, 140, rfl⟩
abbrev main_v108 : Ref sig .tc := ⟨.hbm, 141, rfl⟩
abbrev main_c_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_scratch0 : Ref sig .tc := ⟨.vmem, 51, rfl⟩
abbrev cc6_scratch1 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc6_sem4_0 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v45 : BitVec 1 := Scalar.cmpi .eq arg0 c19_i32
  let v46 : BitVec 32 := Scalar.extui v45
  let c0_i32_24 : BitVec 32 := 0#32
  let v47 : BitVec 1 := Scalar.cmpi .ne v46 c0_i32_24
  v47

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S100000x1_0 : S100000.BroadcastsInDim S100000x1 (![0] : Fin 1 → Fin S100000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S5000x64_S5000 : S5000x64.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S_ : S1x1.ShapeCasts S_
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v92) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v113) S5000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v114) S1x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x100000 : Shape := ⟨2, ![2, 100000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩
abbrev S1x100000 : Shape := ⟨2, ![1, 100000]⟩

abbrev nBuf : Space → Nat
  | .hbm => 250
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S2x100000, .i32⟩
  | 9 => ⟨S2x100000, .i32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000, .f32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S1600000x1, .f32⟩
  | 17 => ⟨S1600000x64, .f32⟩
  | 18 => ⟨S1600000x64, .f32⟩
  | 19 => ⟨S_, .f32⟩
  | 20 => ⟨S100000x64, .f32⟩
  | 21 => ⟨S1600000x1, .i32⟩
  | 22 => ⟨S100000x64, .f32⟩
  | 23 => ⟨S100000, .f32⟩
  | 24 => ⟨S100000x1, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S1x100000, .i32⟩
  | 35 => ⟨S100000, .i32⟩
  | 36 => ⟨S1x100000, .i32⟩
  | 37 => ⟨S100000, .i32⟩
  | 38 => ⟨S1x100000, .i32⟩
  | 39 => ⟨S100000, .i32⟩
  | 40 => ⟨S1x100000, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x64, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x64, .f32⟩
  | 60 => ⟨S100000x64, .f32⟩
  | 61 => ⟨S_, .f32⟩
  | 62 => ⟨S100000, .f32⟩
  | 63 => ⟨S100000, .f32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x64, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x64, .f32⟩
  | 89 => ⟨S100000x64, .f32⟩
  | 90 => ⟨S_, .f32⟩
  | 91 => ⟨S100000, .f32⟩
  | 92 => ⟨S100000, .f32⟩
  | 93 => ⟨S100000, .f32⟩
  | 94 => ⟨S_, .f32⟩
  | 95 => ⟨S100000, .f32⟩
  | 96 => ⟨S100000, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S100000, .f32⟩
  | 111 => ⟨S100000, .f32⟩
  | 112 => ⟨S_, .f32⟩
  | 113 => ⟨S100000, .f32⟩
  | 114 => ⟨S100000, .f32⟩
  | 115 => ⟨S100000, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_15 : Ref sig .tc := ⟨.hbm, 116, rfl⟩
abbrev main_v87 : Ref sig .tc := ⟨.hbm, 117, rfl⟩
abbrev main_v88 : Ref sig .tc := ⟨.hbm, 118, rfl⟩
abbrev main_c_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_17 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_19 : Ref sig .tc := ⟨.hbm, 135, rfl⟩
abbrev main_v102 : Ref sig .tc := ⟨.hbm, 136, rfl⟩
abbrev main_v103 : Ref sig .tc := ⟨.hbm, 137, rfl⟩
abbrev main_c_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_22 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_c_23 : Ref sig .tc := ⟨.hbm, 170, rfl⟩
abbrev main_v133 : Ref sig .tc := ⟨.hbm, 171, rfl⟩
abbrev main_v134 : Ref sig .tc := ⟨.hbm, 172, rfl⟩
abbrev main_c_24 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_c_25 : Ref sig .tc := ⟨.hbm, 179, rfl⟩
abbrev main_v140 : Ref sig .tc := ⟨.hbm, 180, rfl⟩
abbrev main_v141 : Ref sig .tc := ⟨.hbm, 181, rfl⟩
abbrev main_c_26 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_27 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_28 : Ref sig .tc := ⟨.hbm, 193, rfl⟩
abbrev main_v151 : Ref sig .tc := ⟨.hbm, 194, rfl⟩
abbrev main_v152 : Ref sig .tc := ⟨.hbm, 195, rfl⟩
abbrev main_cst_29 : Ref sig .tc := ⟨.hbm, 196, rfl⟩
abbrev main_v153 : Ref sig .tc := ⟨.hbm, 197, rfl⟩
abbrev main_v154 : Ref sig .tc := ⟨.hbm, 198, rfl⟩
abbrev main_c_30 : Ref sig .tc := ⟨.hbm, 199, rfl⟩
abbrev main_v155 : Ref sig .tc := ⟨.hbm, 200, rfl⟩
abbrev main_v156 : Ref sig .tc := ⟨.hbm, 201, rfl⟩
abbrev main_c_31 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_c_32 : Ref sig .tc := ⟨.hbm, 208, rfl⟩
abbrev main_v162 : Ref sig .tc := ⟨.hbm, 209, rfl⟩
abbrev main_v163 : Ref sig .tc := ⟨.hbm, 210, rfl⟩
abbrev main_c_33 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_34 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_35 : Ref sig .tc := ⟨.hbm, 222, rfl⟩
abbrev main_v173 : Ref sig .tc := ⟨.hbm, 223, rfl⟩
abbrev main_v174 : Ref sig .tc := ⟨.hbm, 224, rfl⟩
abbrev main_cst_36 : Ref sig .tc := ⟨.hbm, 225, rfl⟩
abbrev main_v175 : Ref sig .tc := ⟨.hbm, 226, rfl⟩
abbrev main_v176 : Ref sig .tc := ⟨.hbm, 227, rfl⟩
abbrev main_cst_37 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_38 : Ref sig .tc := ⟨.hbm, 232, rfl⟩
abbrev main_v180 : Ref sig .tc := ⟨.hbm, 233, rfl⟩
abbrev main_cst_39 : Ref sig .tc := ⟨.hbm, 234, rfl⟩
abbrev main_v181 : Ref sig .tc := ⟨.hbm, 235, rfl⟩
abbrev main_v182 : Ref sig .tc := ⟨.hbm, 236, rfl⟩
abbrev main_cst_40 : Ref sig .tc := ⟨.hbm, 237, rfl⟩
abbrev main_v183 : Ref sig .tc := ⟨.hbm, 238, rfl⟩
abbrev main_v184 : Ref sig .tc := ⟨.hbm, 239, rfl⟩
abbrev main_cst_41 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_42 : Ref sig .tc := ⟨.hbm, 244, rfl⟩
abbrev main_v188 : Ref sig .tc := ⟨.hbm, 245, rfl⟩
abbrev main_cst_43 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  reducesTo_S100000x64_S100000_d1 : S100000x64.ReducesTo [1] S100000
  h_S_ : 0 < S_.numel
  reducesTo_S100000_S_d0 : S100000.ReducesTo [0] S_
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S100000x1_S100000x64_1_0_n_n_0_1_164_wf : GatherDims.WF S100000x64 S100000x1 S100000x64 [1] [0] [] [0] [] 1 ![1, 64]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.RefGen.lean ====
import proofs.«108427_j91276644975069_1_alg».proof.Proof.Gen.ReferenceIdeal.Run
import proofs.«108427_j91276644975069_1_alg».proof.Proof.Gen.ReferenceIdeal.Read
-- ==== Proof.KI.R0.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_2 : Rect S5000x128 := Rect.unit ![0, 0] S5000x128.size inb_S5000x128_S5000x128_0_0

def out0_2 (x0 : Vec F S5000x64 .f32) (x1 : Vec F S64x128 .f32) : Vec F S5000x128 .f32 :=
  View.canon [⟨r0_2, k0_pay1 (View.ld x0 (Rect.unit ![0, 0] S5000x64.size inb_S5000x64_S5000x64_0_0))
    (View.ld x1 (Rect.unit ![0, 0] S64x128.size inb_S64x128_S64x128_0_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem after0_2 (t : Fin cfg0.N) : (dat0 V c).after 2 t = out0_2 (iblk0 V c 0 t) (iblk0 V c 1 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d

theorem before0_1 (t : Fin cfg0.N) (d) : (dat0 V c).before 1 t d = iblk0 V c 1 t :=
  (dat0 V c).before_in_eq_fetched 1 rfl (fun _ => rfl) (fun _ _ _ => rfl) (fun _ => rfl) t d

-- The body leaves its two inputs as they were and their product in the output; whatever else is held passes through.
theorem sound_kernel0 {E : Set ℕ} (i : grid0.Coords) {arg0 : Memref sig .tc .vmem S5000x64 .f32} (harg0 : arg0.IsWhole)
    {arg1 : Memref sig .tc .vmem S64x128 .f32} (harg1 : arg1.IsWhole) {arg2 : Memref sig .tc .vmem S5000x128 .f32} (harg2 : arg2.IsWhole)
    {D0 D1 D2 : Type} {X0 : D0 → Vec F S5000x64 .f32} {X1 : D1 → Vec F S64x128 .f32} {X2 : D2 → Vec F S5000x128 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc0__matmul_kernel i arg0 harg0 arg1 harg1 arg2 harg2) fun _ =>
        iprop(R ∗ R' ∗ owns c.tc arg0 fullShare x0 ∗ owns c.tc arg1 fullShare x1
          ∗ owns c.tc arg2 fullShare (out0_2 x0 x1)) := by
  rw [cc0__matmul_kernel_eq_skeleton]; unfold cc0__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x128.size rfl)

theorem body_obligation0 : BodyObligation (dat0 (F := F) V c) (defs₀ (F := F)) Variants.none () Set.univ := fun t => by
  rw [bigSep_W0, bigSep_W0, after0_2]
  exact sound_kernel0 c (grid0.coords t) (stage_whole0 0 _) (stage_whole0 1 _) (stage_whole0 2 _) (before0_0 V c t) (before0_1 V c t)

end Cert.KernelIdeal.Fr

end
-- ==== Proof.KI.R1.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.TableIdle

noncomputable section

namespace Cert.KernelIdeal.Fr

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

-- The output block: the combine of the four input blocks, written whole.
def out1_4 (x0 : Vec F S5000x128 .f32) (x1 : Vec F S5000x128 .f32) (x2 : Vec F S5000x1 .f32) (x3 : Vec F S1x128 .f32) : Vec F S5000x128 .f32 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_4 (c : Dev nD) (t : Fin cfg1.N) :
    (dat1 V c).after 4 t = out1_4 (iblk1 V c 0 t) (iblk1 V c 1 t) (iblk1 V c 2 t) (iblk1 V c 3 t) := by dsimp only [dat1]

theorem before1 (c : Dev nD) (t : Fin cfg1.N) (w : Fin cfg1.W) (hw : w ≠ 4) : ∀ d, (dat1 V c).before w t d = (dat1 V c).after w t := by
  fin_cases w <;> first
    | exact absurd rfl hw
    | exact fun d => ((dat1 V c).before_in_eq_fetched _ rfl (fun _ => rfl) (fun _ _ _ => rfl) (fun _ => by dsimp only [dat1]; rfl) t d).trans (by dsimp only [dat1]; rfl)

theorem body_obligation1 (c : Dev nD) : BodyObligation (dat1 (F := F) V c) (defs₀ (F := F)) Variants.none () Set.univ := fun t => by
  rw [bigSep_W1, bigSep_W1]
  simp (disch := decide) only [before1]
  show _ ⊢ wp _ _ _ (bodyAt1 t) _
  unfold bodyAt1
  rw [cc1_kernel_eq_skeleton]; unfold cc1_kernel_skel
  dsimp only [dat1, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x128.size rfl)).trans (by sl_unfold_run_names; simp only [View.readAt_rep]; rfl)

end Cert.KernelIdeal.Fr

end
-- ==== Proof.KI.R2.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S5000x64 := Rect.unit ![0, 0] S5000x64.size inb_S5000x64_S5000x64_0_0

def out2_2 (x0 : Vec F S5000x128 .f32) (x1 : Vec F S128x64 .f32) : Vec F S5000x64 .f32 :=
  View.canon [⟨r2_2, k2_pay1 (View.ld x0 (Rect.unit ![0, 0] S5000x128.size inb_S5000x128_S5000x128_0_0))
    (View.ld x1 (Rect.unit ![0, 0] S128x64.size inb_S128x64_S128x64_0_0))⟩]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = out2_2 (iblk2 V c 0 t) (iblk2 V c 1 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d

theorem before2_1 (t : Fin cfg2.N) (d) : (dat2 V c).before 1 t d = iblk2 V c 1 t :=
  (dat2 V c).before_in_eq_fetched 1 rfl (fun _ => rfl) (fun _ _ _ => rfl) (fun _ => rfl) t d

-- The body leaves its two inputs as they were and their product in the output; whatever else is held passes through.
theorem sound_kernel2 {E : Set ℕ} (i : grid2.Coords) {arg0 : Memref sig .tc .vmem S5000x128 .f32} (harg0 : arg0.IsWhole)
    {arg1 : Memref sig .tc .vmem S128x64 .f32} (harg1 : arg1.IsWhole) {arg2 : Memref sig .tc .vmem S5000x64 .f32} (harg2 : arg2.IsWhole)
    {D0 D1 D2 : Type} {X0 : D0 → Vec F S5000x128 .f32} {X1 : D1 → Vec F S128x64 .f32} {X2 : D2 → Vec F S5000x64 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc2__matmul_kernel i arg0 harg0 arg1 harg1 arg2 harg2) fun _ =>
        iprop(R ∗ R' ∗ owns c.tc arg0 fullShare x0 ∗ owns c.tc arg1 fullShare x1
          ∗ owns c.tc arg2 fullShare (out2_2 x0 x1)) := by
  rw [cc2__matmul_kernel_eq_skeleton]; unfold cc2__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x64.size rfl)

theorem body_obligation2 : BodyObligation (dat2 (F := F) V c) (defs₀ (F := F)) Variants.none () Set.univ := fun t => by
  rw [bigSep_W2, bigSep_W2, after2_2]
  exact sound_kernel2 c (grid2.coords t) (stage_whole2 0 _) (stage_whole2 1 _) (stage_whole2 2 _) (before2_0 V c t) (before2_1 V c t)

end Cert.KernelIdeal.Fr

end
-- ==== Proof.KI.R3.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.TableIdle

noncomputable section

namespace Cert.KernelIdeal.Fr

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

-- The output block: the combine of the four input blocks, written whole.
def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) (w : Fin cfg3.W) (hw : w ≠ 4) : ∀ d, (dat3 V c).before w t d = (dat3 V c).after w t := by
  fin_cases w <;> first
    | exact absurd rfl hw
    | exact fun d => ((dat3 V c).before_in_eq_fetched _ rfl (fun _ => rfl) (fun _ _ _ => rfl) (fun _ => by dsimp only [dat3]; rfl) t d).trans (by dsimp only [dat3]; rfl)

theorem body_obligation3 (c : Dev nD) : BodyObligation (dat3 (F := F) V c) (defs₀ (F := F)) Variants.none () Set.univ := fun t => by
  rw [bigSep_W3, bigSep_W3]
  simp (disch := decide) only [before3]
  show _ ⊢ wp _ _ _ (bodyAt3 t) _
  unfold bodyAt3
  rw [cc3_kernel_eq_skeleton]; unfold cc3_kernel_skel
  dsimp only [dat3, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x64.size rfl)).trans (by sl_unfold_run_names; simp only [View.readAt_rep]; rfl)

end Cert.KernelIdeal.Fr

end
-- ==== Proof.KI.R4.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_2 : Rect S5000x64 := Rect.unit ![0, 0] S5000x64.size inb_S5000x64_S5000x64_0_0

def out4_2 (x0 : Vec F S5000x128 .f32) (x1 : Vec F S128x64 .f32) : Vec F S5000x64 .f32 :=
  View.canon [⟨r4_2, k4_pay1 (View.ld x0 (Rect.unit ![0, 0] S5000x128.size inb_S5000x128_S5000x128_0_0))
    (View.ld x1 (Rect.unit ![0, 0] S128x64.size inb_S128x64_S128x64_0_0))⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem after4_2 (t : Fin cfg4.N) : (dat4 V c).after 2 t = out4_2 (iblk4 V c 0 t) (iblk4 V c 1 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d

theorem before4_1 (t : Fin cfg4.N) (d) : (dat4 V c).before 1 t d = iblk4 V c 1 t :=
  (dat4 V c).before_in_eq_fetched 1 rfl (fun _ => rfl) (fun _ _ _ => rfl) (fun _ => rfl) t d

-- The body leaves its two inputs as they were and their product in the output; whatever else is held passes through.
theorem sound_kernel4 {E : Set ℕ} (i : grid4.Coords) {arg0 : Memref sig .tc .vmem S5000x128 .f32} (harg0 : arg0.IsWhole)
    {arg1 : Memref sig .tc .vmem S128x64 .f32} (harg1 : arg1.IsWhole) {arg2 : Memref sig .tc .vmem S5000x64 .f32} (harg2 : arg2.IsWhole)
    {D0 D1 D2 : Type} {X0 : D0 → Vec F S5000x128 .f32} {X1 : D1 → Vec F S128x64 .f32} {X2 : D2 → Vec F S5000x64 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc4__matmul_kernel i arg0 harg0 arg1 harg1 arg2 harg2) fun _ =>
        iprop(R ∗ R' ∗ owns c.tc arg0 fullShare x0 ∗ owns c.tc arg1 fullShare x1
          ∗ owns c.tc arg2 fullShare (out4_2 x0 x1)) := by
  rw [cc4__matmul_kernel_eq_skeleton]; unfold cc4__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x64.size rfl)

theorem body_obligation4 : BodyObligation (dat4 (F := F) V c) (defs₀ (F := F)) Variants.none () Set.univ := fun t => by
  rw [bigSep_W4, bigSep_W4, after4_2]
  exact sound_kernel4 c (grid4.coords t) (stage_whole4 0 _) (stage_whole4 1 _) (stage_whole4 2 _) (before4_0 V c t) (before4_1 V c t)

end Cert.KernelIdeal.Fr

end
-- ==== Proof.KI.R5.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.TableIdle

noncomputable section

namespace Cert.KernelIdeal.Fr

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S5000x1 := Rect.unit (s := S5000x1) ![0, 0] S5000x1.size inb_S5000x1_S5000x1_0_0
abbrev r5_2 : Rect S1x64 := Rect.unit (s := S1x64) ![0, 0] S1x64.size inb_S1x64_S1x64_0_0

-- The output block: the combine of the four input blocks, written whole.
def out5_4 (x0 : Vec F S5000x64 .f32) (x1 : Vec F S5000x64 .f32) (x2 : Vec F S5000x1 .f32) (x3 : Vec F S1x64 .f32) : Vec F S5000x64 .f32 :=
  View.canon [⟨r5_0, k5_pay1 (View.ld x0 r5_0) (View.ld x1 r5_0) (View.ld x2 r5_1) (View.ld x3 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem after5_4 (c : Dev nD) (t : Fin cfg5.N) :
    (dat5 V c).after 4 t = out5_4 (iblk5 V c 0 t) (iblk5 V c 1 t) (iblk5 V c 2 t) (iblk5 V c 3 t) := by dsimp only [dat5]

theorem before5 (c : Dev nD) (t : Fin cfg5.N) (w : Fin cfg5.W) (hw : w ≠ 4) : ∀ d, (dat5 V c).before w t d = (dat5 V c).after w t := by
  fin_cases w <;> first
    | exact absurd rfl hw
    | exact fun d => ((dat5 V c).before_in_eq_fetched _ rfl (fun _ => rfl) (fun _ _ _ => rfl) (fun _ => by dsimp only [dat5]; rfl) t d).trans (by dsimp only [dat5]; rfl)

theorem body_obligation5 (c : Dev nD) : BodyObligation (dat5 (F := F) V c) (defs₀ (F := F)) Variants.none () Set.univ := fun t => by
  rw [bigSep_W5, bigSep_W5]
  simp (disch := decide) only [before5]
  show _ ⊢ wp _ _ _ (bodyAt5 t) _
  unfold bodyAt5
  rw [cc5_kernel_eq_skeleton]; unfold cc5_kernel_skel
  dsimp only [dat5, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x64.size rfl)).trans (by sl_unfold_run_names; simp only [View.readAt_rep]; rfl)

end Cert.KernelIdeal.Fr

end
-- ==== Proof.KI.Fold.lean ====
import proofs.«108427_j91276644975069_1_alg».proof.Proof.KI.R0
import proofs.«108427_j91276644975069_1_alg».proof.Proof.KI.R1
import proofs.«108427_j91276644975069_1_alg».proof.Proof.KI.R2
import proofs.«108427_j91276644975069_1_alg».proof.Proof.KI.R3
import proofs.«108427_j91276644975069_1_alg».proof.Proof.KI.R4
import proofs.«108427_j91276644975069_1_alg».proof.Proof.KI.R5
import proofs.«108427_j91276644975069_1_alg».proof.Proof.Gen.KernelIdeal.Regions

noncomputable section

namespace Cert.KernelIdeal.Fr

open Cert.KernelIdeal Cert.KernelIdeal.Gen
open Idealize.ShloMosaic Idealize.ShloMosaic.TcCoe
open Idealize.ShloMosaic.Pipeline (Dat Cfg WinSpec withArrays arrRef)

variable {F : FTy → Type} [FloatOps F]

theorem ne_of_not_mem {gr W : ℕ} {win : Fin W → WinSpec sig gr} {b : Ref sig .tc}
    (hb : b ∉ Finset.univ.image (arrRef win)) (w : Fin W) : arrRef win w ≠ b :=
  fun e => hb (Finset.mem_image.mpr ⟨w, Finset.mem_univ _, e⟩)

/-- Every window of the region on `b` is an input window. -/
abbrev In (cfg : Cfg sig Λ₀) (b : Ref sig .tc) : Prop := ∀ w, arrRef cfg.spec w = b → (cfg.win w).isOut = false

-- By cases on whether `b` is one of the region's arrays: each such is only read (`h`), so `arrAt` is constant there.
theorem keep {cfg : Cfg sig Λ₀} {c : Dev nD} (d : Dat τ (Elt F) Unit ℕ (UR sig nD τ) ℕ cfg c) {V : Valuation τ sig (Elt F)}
    (inj : Function.Injective (arrRef cfg.spec)) (hA : ∀ w, d.A w = V (arrRef cfg.spec w))
    {b : Ref sig .tc} (h : In cfg b) :
    withArrays cfg.spec c V (fun w => d.arrAt w cfg.N) b = V b := by
  by_cases hb : ∃ w, arrRef cfg.spec w = b
  · obtain ⟨w, rfl⟩ := hb
    rw [Pipeline.withArrays_arr _ inj, d.arrAt_in w (h w rfl), hA]
  · exact Pipeline.withArrays_of_ne _ c V _ b fun w e => hb ⟨w, e⟩

variable (m : (ℓ : Loc nD τ sig) → Buf (Elt F) ℓ) (ρ : Dev nD → PrngReg) (c : Dev nD)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (r : Ref sig .tc) (h : r ∉ hostOps0_W) :
    W1 m ρ c r = W0 m ρ c r :=
  StableHlo.after_of_writes_sub hostOps0 _ hostOps0_writes h

def W2 : Valuation τ sig (Elt F) :=
  withArrays spec0 c (W1 m ρ c) fun w => (dat0 (V1 m ρ) c).arrAt w cfg0.N
theorem W2_arr (w : Fin cfg0.W) :
    W2 m ρ c (arrRef spec0 w) = (dat0 (V1 m ρ) c).arrAt w cfg0.N :=
  Pipeline.withArrays_arr _ launch0.win.arr_inj c _ _ w
theorem W2_of_ne (b : Ref sig .tc) (hb : ∀ w, arrRef spec0 w ≠ b) :
    W2 m ρ c b = W1 m ρ c b :=
  Pipeline.withArrays_of_ne _ c _ _ b hb
abbrev V2 : (c : Dev nD) → (b : Ref sig .tc) → Buf (Elt F) ((c : Thread nD τ).loc b) := fun c b => W2 m ρ c b
theorem hF0 (w : Fin cfg0.W) : (dat0 (V1 m ρ) c).arrAt w cfg0.N = V2 m ρ c (arrRef spec0 w) :=
  (W2_arr m ρ c w).symm
theorem hrest0 : ∀ b, b ∉ Finset.univ.image (arrRef spec0) → V2 m ρ c b = V1 m ρ c b :=
  fun b hb => W2_of_ne m ρ c b (ne_of_not_mem hb)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (r : Ref sig .tc) (h : r ∉ hostOps1_W) :
    W3 m ρ c r = W2 m ρ c r :=
  StableHlo.after_of_writes_sub hostOps1 _ hostOps1_writes h

def W4 : Valuation τ sig (Elt F) :=
  withArrays spec1 c (W3 m ρ c) fun w => (dat1 (V3 m ρ) c).arrAt w cfg1.N
theorem W4_arr (w : Fin cfg1.W) :
    W4 m ρ c (arrRef spec1 w) = (dat1 (V3 m ρ) c).arrAt w cfg1.N :=
  Pipeline.withArrays_arr _ launch1.win.arr_inj c _ _ w
theorem W4_of_ne (b : Ref sig .tc) (hb : ∀ w, arrRef spec1 w ≠ b) :
    W4 m ρ c b = W3 m ρ c b :=
  Pipeline.withArrays_of_ne _ c _ _ b hb
abbrev V4 : (c : Dev nD) → (b : Ref sig .tc) → Buf (Elt F) ((c : Thread nD τ).loc b) := fun c b => W4 m ρ c b
theorem hF1 (w : Fin cfg1.W) : (dat1 (V3 m ρ) c).arrAt w cfg1.N = V4 m ρ c (arrRef spec1 w) :=
  (W4_arr m ρ c w).symm
theorem hrest1 : ∀ b, b ∉ Finset.univ.image (arrRef spec1) → V4 m ρ c b = V3 m ρ c b :=
  fun b hb => W4_of_ne m ρ c b (ne_of_not_mem hb)

def W5 : Valuation τ sig (Elt F) :=
  withArrays spec2 c (W4 m ρ c) fun w => (dat2 (V4 m ρ) c).arrAt w cfg2.N
theorem W5_arr (w : Fin cfg2.W) :
    W5 m ρ c (arrRef spec2 w) = (dat2 (V4 m ρ) c).arrAt w cfg2.N :=
  Pipeline.withArrays_arr _ launch2.win.arr_inj c _ _ w
theorem W5_of_ne (b : Ref sig .tc) (hb : ∀ w, arrRef spec2 w ≠ b) :
    W5 m ρ c b = W4 m ρ c b :=
  Pipeline.withArrays_of_ne _ c _ _ b hb
abbrev V5 : (c : Dev nD) → (b : Ref sig .tc) → Buf (Elt F) ((c : Thread nD τ).loc b) := fun c b => W5 m ρ c b
theorem hF2 (w : Fin cfg2.W) : (dat2 (V4 m ρ) c).arrAt w cfg2.N = V5 m ρ c (arrRef spec2 w) :=
  (W5_arr m ρ c w).symm
theorem hrest2 : ∀ b, b ∉ Finset.univ.image (arrRef spec2) → V5 m ρ c b = V4 m ρ c b :=
  fun b hb => W5_of_ne m ρ c b (ne_of_not_mem hb)

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
theorem W6_of (r : Ref sig .tc) (h : r ∉ hostOps3_W) :
    W6 m ρ c r = W5 m ρ c r :=
  StableHlo.after_of_writes_sub hostOps3 _ hostOps3_writes h

def W7 : Valuation τ sig (Elt F) :=
  withArrays spec3 c (W6 m ρ c) fun w => (dat3 (V6 m ρ) c).arrAt w cfg3.N
theorem W7_arr (w : Fin cfg3.W) :
    W7 m ρ c (arrRef spec3 w) = (dat3 (V6 m ρ) c).arrAt w cfg3.N :=
  Pipeline.withArrays_arr _ launch3.win.arr_inj c _ _ w
theorem W7_of_ne (b : Ref sig .tc) (hb : ∀ w, arrRef spec3 w ≠ b) :
    W7 m ρ c b = W6 m ρ c b :=
  Pipeline.withArrays_of_ne _ c _ _ b hb
abbrev V7 : (c : Dev nD) → (b : Ref sig .tc) → Buf (Elt F) ((c : Thread nD τ).loc b) := fun c b => W7 m ρ c b
theorem hF3 (w : Fin cfg3.W) : (dat3 (V6 m ρ) c).arrAt w cfg3.N = V7 m ρ c (arrRef spec3 w) :=
  (W7_arr m ρ c w).symm
theorem hrest3 : ∀ b, b ∉ Finset.univ.image (arrRef spec3) → V7 m ρ c b = V6 m ρ c b :=
  fun b hb => W7_of_ne m ρ c b (ne_of_not_mem hb)

def W8 : Valuation τ sig (Elt F) :=
  withArrays spec4 c (W7 m ρ c) fun w => (dat4 (V7 m ρ) c).arrAt w cfg4.N
theorem W8_arr (w : Fin cfg4.W) :
    W8 m ρ c (arrRef spec4 w) = (dat4 (V7 m ρ) c).arrAt w cfg4.N :=
  Pipeline.withArrays_arr _ launch4.win.arr_inj c _ _ w
theorem W8_of_ne (b : Ref sig .tc) (hb : ∀ w, arrRef spec4 w ≠ b) :
    W8 m ρ c b = W7 m ρ c b :=
  Pipeline.withArrays_of_ne _ c _ _ b hb
abbrev V8 : (c : Dev nD) → (b : Ref sig .tc) → Buf (Elt F) ((c : Thread nD τ).loc b) := fun c b => W8 m ρ c b
theorem hF4 (w : Fin cfg4.W) : (dat4 (V7 m ρ) c).arrAt w cfg4.N = V8 m ρ c (arrRef spec4 w) :=
  (W8_arr m ρ c w).symm
theorem hrest4 : ∀ b, b ∉ Finset.univ.image (arrRef spec4) → V8 m ρ c b = V7 m ρ c b :=
  fun b hb => W8_of_ne m ρ c b (ne_of_not_mem hb)

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem W9_of (r : Ref sig .tc) (h : r ∉ hostOps5_W) :
    W9 m ρ c r = W8 m ρ c r :=
  StableHlo.after_of_writes_sub hostOps5 _ hostOps5_writes h

def W10 : Valuation τ sig (Elt F) :=
  withArrays spec5 c (W9 m ρ c) fun w => (dat5 (V9 m ρ) c).arrAt w cfg5.N
theorem W10_arr (w : Fin cfg5.W) :
    W10 m ρ c (arrRef spec5 w) = (dat5 (V9 m ρ) c).arrAt w cfg5.N :=
  Pipeline.withArrays_arr _ launch5.win.arr_inj c _ _ w
theorem W10_of_ne (b : Ref sig .tc) (hb : ∀ w, arrRef spec5 w ≠ b) :
    W10 m ρ c b = W9 m ρ c b :=
  Pipeline.withArrays_of_ne _ c _ _ b hb
abbrev V10 : (c : Dev nD) → (b : Ref sig .tc) → Buf (Elt F) ((c : Thread nD τ).loc b) := fun c b => W10 m ρ c b
theorem hF5 (w : Fin cfg5.W) : (dat5 (V9 m ρ) c).arrAt w cfg5.N = V10 m ρ c (arrRef spec5 w) :=
  (W10_arr m ρ c w).symm
theorem hrest5 : ∀ b, b ∉ Finset.univ.image (arrRef spec5) → V10 m ρ c b = V9 m ρ c b :=
  fun b hb => W10_of_ne m ρ c b (ne_of_not_mem hb)

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
theorem W11_of (r : Ref sig .tc) (h : r ∉ hostOps6_W) :
    W11 m ρ c r = W10 m ρ c r :=
  StableHlo.after_of_writes_sub hostOps6 _ hostOps6_writes h

/-- No host stretch before the last region writes `b`; regions 0, 2, 4 meet it through input windows only, regions 1, 3, 5 not at all. -/
abbrev Kept (b : Ref sig .tc) : Prop :=
  b ∉ hostOps0_W ∧ In cfg0 b ∧ b ∉ hostOps1_W ∧ (∀ w, arrRef spec1 w ≠ b) ∧ In cfg2 b ∧ b ∉ hostOps3_W
    ∧ (∀ w, arrRef spec3 w ≠ b) ∧ In cfg4 b ∧ b ∉ hostOps5_W ∧ (∀ w, arrRef spec5 w ≠ b) ∧ b ∉ hostOps6_W

-- Such a buffer holds its launch contents at the last region's entry: the fold walks back step by step.
theorem W11_kept {b : Ref sig .tc} (h : Kept b) : W11 m ρ c b = m ((c : Thread nD τ).loc b) := by
  obtain ⟨h0, h1, h2, h3, h4, h5, h6, h7, h8, h9, h10⟩ := h
  exact (W11_of m ρ c b h10).trans <| (W10_of_ne m ρ c b h9).trans <| (W9_of m ρ c b h8).trans <|
    (keep (dat4 (V7 m ρ) c) launch4.win.arr_inj (A_eq4 _ c) h7).trans <| (W7_of_ne m ρ c b h6).trans <|
    (W6_of m ρ c b h5).trans <| (keep (dat2 (V4 m ρ) c) launch2.win.arr_inj (A_eq2 _ c) h4).trans <|
    (W4_of_ne m ρ c b h3).trans <| (W3_of m ρ c b h2).trans <|
    (keep (dat0 (V1 m ρ) c) launch0.win.arr_inj (A_eq0 _ c) h1).trans <| W1_of m ρ c b h0

theorem W11_main_arg8 : W11 m ρ c main_arg8 = m ((c : Thread nD τ).loc main_arg8) :=
  W11_kept m ρ c (by decide)
theorem W11_main_arg9 : W11 m ρ c main_arg9 = m ((c : Thread nD τ).loc main_arg9) :=
  W11_kept m ρ c (by decide)

end Cert.KernelIdeal.Fr

end
-- ==== Proof.KI.R6Runs.lean ====
import proofs.«108427_j91276644975069_1_alg».proof.Proof.Gen.KernelIdeal.Launch
import proofs.«108427_j91276644975069_1_alg».proof.Proof.Gen.KernelIdeal.Skeleton
import proofs.«108427_j91276644975069_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 20 = 0 :=
  (by decide +kernel : ∀ t : Fin grid6.N, cond6_0 (grid6.coords t) ↔ t.val % 20 = 0)

abbrev cond6_1 (i : grid6.Coords) : Prop := k6_cond2 i = 1#1

theorem hcond6_1 : ∀ t : Fin cfg6.N, cond6_1 (grid6.coords t) ↔ t.val % 20 = 19 :=
  (by decide +kernel : ∀ t : Fin grid6.N, cond6_1 (grid6.coords t) ↔ t.val % 20 = 19)

theorem liveAt6_4_C : ∀ t : Fin cfg6.N, ¬cond6_0 (grid6.coords t) → cond6_1 (grid6.coords t) → cfg6.idle 4 (grid6.coords t) = false := by decide +kernel

abbrev VO6_4 : View sig .tc .vmem S1x1 .f32 := (Memref.whole cc6_stg4_0 : Memref sig .tc .vmem S1x1 .f32).view

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1 .f32 := win6_4.stage (cfg6.slots t 4)
abbrev hs6_4 (t : Fin cfg6.N) : (ms6_4 t).IsWhole := hstage6_4 ((cfg6.slots t 4).cast nbuf6_4)

abbrev scM6_0 : Memref sig .tc .vmem S1x1 .f32 := Memref.whole cc6_scratch0
abbrev scM6_1 : Memref sig .tc .vmem S1x1 .f32 := Memref.whole cc6_scratch1

abbrev VS6_0 : View sig .tc .vmem S1x1 .f32 := scM6_0.view
abbrev VS6_1 : View sig .tc .vmem S1x1 .f32 := scM6_1.view

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl

end Cert.KernelIdeal.Fr

end
-- ==== Proof.KI.R6RunA.lean ====
import proofs.«108427_j91276644975069_1_alg».proof.Proof.KI.R6Runs

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond6_0 i) (hc1 : ¬cond6_1 i)
    (x0 x1 x2 x3 : Vec F S5000x64 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨[], ?_, ?_, fun xi4 E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Fr

end
-- ==== Proof.KI.R6RunB.lean ====
import proofs.«108427_j91276644975069_1_alg».proof.Proof.KI.R6RunA

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond6_0 i) (hc1 : ¬cond6_1 i)
    (x0 x1 x2 x3 : Vec F S5000x64 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨[], ?_, ?_, fun xi4 E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.KernelIdeal.Fr

end
-- ==== Proof.KI.R6RunC.lean ====
import proofs.«108427_j91276644975069_1_alg».proof.Proof.KI.R6RunB

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond6_0 i) (hc1 : cond6_1 i)
    (x0 x1 x2 x3 : Vec F S5000x64 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨?_, ?_, ?_, fun E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Fr

end
-- ==== Proof.KI.R6.lean ====
import proofs.«108427_j91276644975069_1_alg».proof.Proof.KI.R6RunC

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid6.Coords)
  (arg1 : Memref sig .tc .vmem S5000x64 .f32) (harg1 : arg1.IsWhole) (arg2 : Memref sig .tc .vmem S5000x64 .f32) (harg2 : arg2.IsWhole)
  (arg3 : Memref sig .tc .vmem S5000x64 .f32) (harg3 : arg3.IsWhole) (arg4 : Memref sig .tc .vmem S5000x64 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x1 .f32) (harg7 : arg7.IsWhole)

section
variable (hc0 : cond6_0 i) (hc1 : ¬cond6_1 i) (x0 x1 x2 x3 : Vec F S5000x64 .f32)

def out6_A_4 : Vec F S1x1 .f32 :=
  VO6_4.read (Elt F) (VO6_4.writes (Elt F) VO6_4.junk (kernelRun6_A c i arg1 harg1 arg2 harg2 arg3 harg3 arg4 harg4 arg5 harg5 arg6 harg6 arg7 harg7 hc0 hc1 x0 x1 x2 x3).1)

theorem scover6_A_0 (y : S1x1.Idx) : ∃ pc ∈ (kernelRun6_A c i arg1 harg1 arg2 harg2 arg3 harg3 arg4 harg4 arg5 harg5 arg6 harg6 arg7 harg7 hc0 hc1 x0 x1 x2 x3).2.1, y ∈ pc.1.set :=
  View.cover_of_tiledL _ S1x1.size (by sl_kernel_rfl) y

def sout6_A_0 : Vec F S1x1 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3).2.1)

theorem scover6_A_1 (y : S1x1.Idx) : ∃ pc ∈ (kernelRun6_A c i arg1 harg1 arg2 harg2 arg3 harg3 arg4 harg4 arg5 harg5 arg6 harg6 arg7 harg7 hc0 hc1 x0 x1 x2 x3).2.2.1, y ∈ pc.1.set :=
  View.cover_of_tiledL _ S1x1.size (by sl_kernel_rfl) y

def sout6_A_1 : Vec F S1x1 .f32 :=
  VS6_1.read (Elt F) (VS6_1.writes (Elt F) VS6_1.junk (kernelRun6_A c i arg1 harg1 arg2 harg2 arg3 harg3 arg4 harg4 arg5 harg5 arg6 harg6 arg7 harg7 hc0 hc1 x0 x1 x2 x3).2.2.1)

end

section
variable (hc0 : ¬cond6_0 i) (hc1 : ¬cond6_1 i) (x0 x1 x2 x3 : Vec F S5000x64 .f32) (xs0 xs1 : Vec F S1x1 .f32)

def out6_B_4 : Vec F S1x1 .f32 :=
  VO6_4.read (Elt F) (VO6_4.writes (Elt F) VO6_4.junk (kernelRun6_B c i arg1 harg1 arg2 harg2 arg3 harg3 arg4 harg4 arg5 harg5 arg6 harg6 arg7 harg7 hc0 hc1 x0 x1 x2 x3 xs0 xs1).1)

theorem scover6_B_0 (y : S1x1.Idx) : ∃ pc ∈ (kernelRun6_B c i arg1 harg1 arg2 harg2 arg3 harg3 arg4 harg4 arg5 harg5 arg6 harg6 arg7 harg7 hc0 hc1 x0 x1 x2 x3 xs0 xs1).2.1, y ∈ pc.1.set :=
  View.cover_of_tiledL _ S1x1.size (by sl_kernel_rfl) y

def sout6_B_0 : Vec F S1x1 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 xs0 xs1).2.1)

theorem scover6_B_1 (y : S1x1.Idx) : ∃ pc ∈ (kernelRun6_B c i arg1 harg1 arg2 harg2 arg3 harg3 arg4 harg4 arg5 harg5 arg6 harg6 arg7 harg7 hc0 hc1 x0 x1 x2 x3 xs0 xs1).2.2.1, y ∈ pc.1.set :=
  View.cover_of_tiledL _ S1x1.size (by sl_kernel_rfl) y

def sout6_B_1 : Vec F S1x1 .f32 :=
  VS6_1.read (Elt F) (VS6_1.writes (Elt F) VS6_1.junk (kernelRun6_B c i arg1 harg1 arg2 harg2 arg3 harg3 arg4 harg4 arg5 harg5 arg6 harg6 arg7 harg7 hc0 hc1 x0 x1 x2 x3 xs0 xs1).2.2.1)

end

section
variable (hc0 : ¬cond6_0 i) (hc1 : cond6_1 i) (x0 x1 x2 x3 : Vec F S5000x64 .f32) (xs0 xs1 : Vec F S1x1 .f32)

theorem cover6_C_4 (y : S1x1.Idx) : ∃ pc ∈ (kernelRun6_C c i arg1 harg1 arg2 harg2 arg3 harg3 arg4 harg4 arg5 harg5 arg6 harg6 arg7 harg7 hc0 hc1 x0 x1 x2 x3 xs0 xs1).1, y ∈ pc.1.set :=
  View.cover_of_tiledL _ S1x1.size (by sl_kernel_rfl) y

def out6_C_4 : Vec F S1x1 .f32 :=
  VO6_4.read (Elt F) (VO6_4.writes (Elt F) VO6_4.junk (kernelRun6_C c i arg1 harg1 arg2 harg2 arg3 harg3 arg4 harg4 arg5 harg5 arg6 harg6 arg7 harg7 hc0 hc1 x0 x1 x2 x3 xs0 xs1).1)

theorem scover6_C_0 (y : S1x1.Idx) : ∃ pc ∈ (kernelRun6_C c i arg1 harg1 arg2 harg2 arg3 harg3 arg4 harg4 arg5 harg5 arg6 harg6 arg7 harg7 hc0 hc1 x0 x1 x2 x3 xs0 xs1).2.1, y ∈ pc.1.set :=
  View.cover_of_tiledL _ S1x1.size (by sl_kernel_rfl) y

def sout6_C_0 : Vec F S1x1 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 xs0 xs1).2.1)

theorem scover6_C_1 (y : S1x1.Idx) : ∃ pc ∈ (kernelRun6_C c i arg1 harg1 arg2 harg2 arg3 harg3 arg4 harg4 arg5 harg5 arg6 harg6 arg7 harg7 hc0 hc1 x0 x1 x2 x3 xs0 xs1).2.2.1, y ∈ pc.1.set :=
  View.cover_of_tiledL _ S1x1.size (by sl_kernel_rfl) y

def sout6_C_1 : Vec F S1x1 .f32 :=
  VS6_1.read (Elt F) (VS6_1.writes (Elt F) VS6_1.junk (kernelRun6_C c i arg1 harg1 arg2 harg2 arg3 harg3 arg4 harg4 arg5 harg5 arg6 harg6 arg7 harg7 hc0 hc1 x0 x1 x2 x3 xs0 xs1).2.2.1)

end

end

/-- `f` at point `t`: the grid coordinate, the memrefs the body is called with there, and the four input blocks. -/
def at6 (c : Dev nD) {P Q : grid6.Coords → Prop} {β : Type}
    (f : (i : grid6.Coords) → (arg1 : Memref sig .tc .vmem S5000x64 .f32) → arg1.IsWhole → (arg2 : Memref sig .tc .vmem S5000x64 .f32) → arg2.IsWhole →
      (arg3 : Memref sig .tc .vmem S5000x64 .f32) → arg3.IsWhole → (arg4 : Memref sig .tc .vmem S5000x64 .f32) → arg4.IsWhole →
      (arg5 : Memref sig .tc .vmem S1x1 .f32) → arg5.IsWhole → (arg6 : Memref sig .tc .vmem S1x1 .f32) → arg6.IsWhole →
      (arg7 : Memref sig .tc .vmem S1x1 .f32) → arg7.IsWhole →
      P i → Q i → Vec F S5000x64 .f32 → Vec F S5000x64 .f32 → Vec F S5000x64 .f32 → Vec F S5000x64 .f32 → β)
    (t : Fin cfg6.N) (p : P (grid6.coords t)) (q : Q (grid6.coords t)) : β :=
  f (grid6.coords t) (ms6_0 t) (hs6_0 t) (ms6_1 t) (hs6_1 t) (ms6_2 t) (hs6_2 t) (ms6_3 t) (hs6_3 t) (ms6_4 t) (hs6_4 t)
    scM6_0 (Memref.isWhole_whole _) scM6_1 (Memref.isWhole_whole _) p q (iblk6 V c 0 t) (iblk6 V c 1 t) (iblk6 V c 2 t) (iblk6 V c 3 t)

/-- The first block's contents: nothing enters from before it. -/
def outA6 (c : Dev nD) (t : Fin cfg6.N) (h0 : t.val % 20 = 0) (h1 : ¬t.val % 20 = 19) :
    Vec F S1x1 .f32 × Vec F S1x1 .f32 × Vec F S1x1 .f32 :=
  have p := (hcond6_0 t).mpr h0
  have q := mt (hcond6_1 t).mp h1
  (at6 V c (out6_A_4 c) t p q, at6 V c (sout6_A_0 c) t p q, at6 V c (sout6_A_1 c) t p q)

/-- What the result and the two accumulators hold after block `n`: block `n` run from what block `n - 1` left. -/
def outsAt6 (c : Dev nD) : (n : ℕ) → n < cfg6.N → Vec F S1x1 .f32 × Vec F S1x1 .f32 × Vec F S1x1 .f32
  | 0, hn => outA6 V c ⟨0, hn⟩ rfl (by decide : ¬0 % 20 = 19)
  | n + 1, hn =>
    if h0 : (n + 1) % 20 = 0 then
      if h1 : (n + 1) % 20 = 19 then absurd (h0.symm.trans h1) (by decide) else outA6 V c ⟨n + 1, hn⟩ h0 h1
    else
      have p := mt (hcond6_0 ⟨n + 1, hn⟩).mp h0
      let s := outsAt6 c n (Nat.lt_of_succ_lt hn)
      if h1 : (n + 1) % 20 = 19 then
        have q := (hcond6_1 ⟨n + 1, hn⟩).mpr h1
        (at6 V c (out6_C_4 c) _ p q s.2.1 s.2.2, at6 V c (sout6_C_0 c) _ p q s.2.1 s.2.2, at6 V c (sout6_C_1 c) _ p q s.2.1 s.2.2)
      else
        have q := mt (hcond6_1 ⟨n + 1, hn⟩).mp h1
        (at6 V c (out6_B_4 c) _ p q s.2.1 s.2.2, at6 V c (sout6_B_0 c) _ p q s.2.1 s.2.2, at6 V c (sout6_B_1 c) _ p q s.2.1 s.2.2)

theorem outsAt6_A (c : Dev nD) (t : Fin cfg6.N) (h0 : t.val % 20 = 0) (h1 : ¬t.val % 20 = 19) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact (dif_pos h0).trans ((dif_neg h1).trans rfl)

theorem outsAt6_B (c : Dev nD) (t : Fin cfg6.N) (h0 : ¬t.val % 20 = 0) (h1 : ¬t.val % 20 = 19) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt6_C (c : Dev nD) (t : Fin cfg6.N) (h0 : ¬t.val % 20 = 0) (h1 : t.val % 20 = 19) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The invariant with the two accumulators held as `A0`, `A1`; whatever else it owns is carried unchanged. -/
def Inv6 (c : Dev nD) (A0 A1 : sProp 𝕄) : sProp 𝕄 :=
  iprop(iprop(iprop(A0 ∗ A1) ∗ Pipeline.scopedRestBut spec6 c [cc6_scratch0, cc6_scratch1]) ∗ (∃ r, prngReg c r))

def PhiS6 (c : Dev nD) : (n : ℕ) → n ≤ cfg6.N → sProp 𝕄
  | 0, _ => Pipeline.ΦA spec6 c
  | n + 1, hn => Inv6 c (owns (c : Thread nD τ) scM6_0 fullShare (outsAt6 V c n hn).2.1) (owns (c : Thread nD τ) scM6_1 fullShare (outsAt6 V c n hn).2.2)

theorem PhiS6_zero (c : Dev nD) (n : ℕ) (h : n ≤ cfg6.N) (hz : n = 0) : PhiS6 V c n h = Pipeline.ΦA spec6 c := by
  subst hz; rfl

theorem PhiS6_pos (c : Dev nD) (n : ℕ) (h : n ≤ cfg6.N) (hz : n ≠ 0) :
    PhiS6 V c n h = Inv6 c (owns (c : Thread nD τ) scM6_0 fullShare (outsAt6 V c (n - 1) (by omega)).2.1) (owns (c : Thread nD τ) scM6_1 fullShare (outsAt6 V c (n - 1) (by omega)).2.2) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem PhiS6_castSucc (c : Dev nD) (t : Fin cfg6.N) :
    (dat6 V c).Φ t.castSucc = PhiS6 V c t.val (Nat.le_of_lt t.isLt) := by
  dsimp only [dat6]; simp only [Fin.coe_castSucc]

theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  (Dat.before_in_eq_fetched (dat6 V c) 0 rfl (fun _ => rfl) (fun _ _ _ => rfl) (fun _ => rfl) t d).trans rfl
theorem before6_1 (c : Dev nD) (t : Fin cfg6.N) (d) : (dat6 V c).before 1 t d = iblk6 V c 1 t :=
  (Dat.before_in_eq_fetched (dat6 V c) 1 rfl (fun _ => rfl) (fun _ _ _ => rfl) (fun _ => rfl) t d).trans rfl
theorem before6_2 (c : Dev nD) (t : Fin cfg6.N) (d) : (dat6 V c).before 2 t d = iblk6 V c 2 t :=
  (Dat.before_in_eq_fetched (dat6 V c) 2 rfl (fun _ => rfl) (fun _ _ _ => rfl) (fun _ => rfl) t d).trans rfl
theorem before6_3 (c : Dev nD) (t : Fin cfg6.N) (d) : (dat6 V c).before 3 t d = iblk6 V c 3 t :=
  (Dat.before_in_eq_fetched (dat6 V c) 3 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

theorem idle6_4 : ∀ t : Fin cfg6.N, ¬cond6_1 (grid6.coords t) →
    cfg6.idle 4 (grid6.coords t) = true ∧ (cfg6.win 4).flush t = false := by decide +kernel

/-- A buffer whose stores cover it is owned at what they read back. -/
theorem owns_of_cover {c : Dev nD} {M : Memref sig .tc .vmem S1x1 .f32} (v : View sig .tc .vmem S1x1 .f32)
    {L : List (View.Piece (Elt F) S1x1 .f32)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

/-- A run that returns the inputs unchanged lifts to the invariant, the accumulators and the result coming back through `h0`, `h1`, `h4`. -/
theorem frame6 {c : Dev nD} {e : Prog (TpuEff nD τ sig (Elt F) Λ₀ .tc) PUnit} {D0 D1 D2 D3 D4 : Type} {I0 I1 I2 I3 S0 S1 T0 T1 A0 A1 L4 Ho : sProp 𝕄} {R4 P4 Q4 : D4 → sProp 𝕄}
    (run : ∀ d (K : PUnit → sProp 𝕄), iprop(I0 ∗ I1 ∗ I2 ∗ I3 ∗ P4 d ∗ S0 ∗ S1 ∗ (iprop(I0 ∗ I1 ∗ I2 ∗ I3 ∗ Q4 d ∗ T0 ∗ T1) -∗ K ⟨⟩)) ⊢ wp frame (wpE (defs₀ (F := F)) Variants.none c none) Set.univ e K)
    (p4 : ∀ d, R4 d ⊢ P4 d) (h0 : T0 ⊢ A0) (h1 : T1 ⊢ A1) (h4 : ∀ d, Q4 d ⊢ L4) :
    iprop(Inv6 c S0 S1 ∗ Ho ∗ (∃ _ : D0, I0) ∗ (∃ _ : D1, I1) ∗ (∃ _ : D2, I2) ∗ (∃ _ : D3, I3) ∗ (∃ d, R4 d))
      ⊢ wp frame (wpE (defs₀ (F := F)) Variants.none c none) Set.univ e (fun _ => iprop(Inv6 c A0 A1 ∗ Ho ∗ I0 ∗ I1 ∗ I2 ∗ I3 ∗ L4)) := by
  unfold Inv6
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply (run d4 _)
  isplitl [H0]; · iexact H0
  isplitl [H1]; · iexact H1
  isplitl [H2]; · iexact H2
  isplitl [H3]; · iexact H3
  isplitl [H4]; · iapply (p4 d4); iexact H4
  isplitl [HS0]; · iexact HS0
  isplitl [HS1]; · iexact HS1
  iintro ⟨H0, H1, H2, H3, H4, HS0, HS1⟩
  isplitl [HS0 HS1 Hrest Hg]
  · isplitl [HS0 HS1 Hrest]
    · isplitl [HS0 HS1]
      · isplitl [HS0]
        · iapply h0; iexact HS0
        iapply h1; iexact HS1
      iexact Hrest
    iexact Hg
  isplitl [Ho]; · iexact Ho
  isplitl [H0]; · iexact H0
  isplitl [H1]; · iexact H1
  isplitl [H2]; · iexact H2
  isplitl [H3]; · iexact H3
  iapply (h4 d4); iexact H4

/-- At any point the invariant entails the entry invariant: the accumulators' contents are forgotten. -/
theorem Phi_weak6 (c : Dev nD) (t : Fin (cfg6.N + 1)) : (dat6 V c).Φ t ⊢ Pipeline.ΦA spec6 c := by
  rw [show (dat6 V c).Φ t = PhiS6 V c t.val (Nat.le_of_lt_succ t.isLt) from rfl]
  by_cases ht : t.val = 0
  · rw [PhiS6_zero V c _ _ ht]
    try exact Idealize.SL.BI.Entails.refl _
  · rw [PhiS6_pos V c _ _ ht, PhiA6_eq]; unfold Inv6
    iintro ⟨⟨⟨HS0, HS1⟩, Hrest⟩, Hg⟩
    isplitl [HS0 HS1 Hrest]
    · isplitl [HS0 HS1]
      · isplitl [HS0]
        · iexists _; iexact HS0
        iexists _; iexact HS1
      iexact Hrest
    iexact Hg

/-- The block's position selects the case; the invariant lends the accumulators and takes them back at this block's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    show (dat6 V c).Φ t.succ = Inv6 c (owns (c : Thread nD τ) scM6_0 fullShare (outsAt6 V c t.val t.isLt).2.1) (owns (c : Thread nD τ) scM6_1 fullShare (outsAt6 V c t.val t.isLt).2.2) from rfl,
    show (dat6 V c).leavesExact 0 t = owns (c : Thread nD τ) (ms6_0 t) fullShare (iblk6 V c 0 t) from rfl,
    show (dat6 V c).leavesExact 1 t = owns (c : Thread nD τ) (ms6_1 t) fullShare (iblk6 V c 1 t) from rfl,
    show (dat6 V c).leavesExact 2 t = owns (c : Thread nD τ) (ms6_2 t) fullShare (iblk6 V c 2 t) from rfl,
    show (dat6 V c).leavesExact 3 t = owns (c : Thread nD τ) (ms6_3 t) fullShare (iblk6 V c 3 t) from rfl]
  by_cases h0 : t.val % 20 = 0
  · have p := (hcond6_0 t).mpr h0
    have h1 : ¬t.val % 20 = 19 := by omega
    have q := mt (hcond6_1 t).mp h1
    rw [Dat.leavesExact_idle (dat6 V c) 4 t (idle6_4 t q).1 (idle6_4 t q).2, outsAt6_A V c t h0 h1]
    unfold sout6_A_0 sout6_A_1; (try dsimp only)
    refine BIBase.Entails.trans (sep_mono_l (Phi_weak6 V c t.castSucc)) ?_
    rw [PhiA6_eq]
    exact frame6 (fun d K => (kernelRun6_A c _ _ _ _ _ _ _ _ _ _ _ _ _ _ _ p q _ _ _ _).2.2.2 ((dat6 V c).before 4 t d) Set.univ K)
      (fun _ => by iintro H; iexact H) (owns_of_cover _ (scover6_A_0 c _ _ _ _ _ _ _ _ _ _ _ _ _ _ _ _ _ _ _ _ _)) (owns_of_cover _ (scover6_A_1 c _ _ _ _ _ _ _ _ _ _ _ _ _ _ _ _ _ _ _ _ _))
      (fun d => by iintro H; iexists d; iexact H)
  · have p := mt (hcond6_0 t).mp h0
    have hz : t.val ≠ 0 := by omega
    rw [PhiS6_castSucc V c t, PhiS6_pos V c _ _ hz]
    by_cases h1 : t.val % 20 = 19
    · have q := (hcond6_1 t).mpr h1
      rw [show (dat6 V c).leavesExact 4 t = owns (c : Thread nD τ) (ms6_4 t) fullShare ((dat6 V c).after 4 t) from by
        unfold Dat.leavesExact; rw [liveAt6_4_C t p q], after6_4, outsAt6_C V c t h0 h1]
      unfold out6_C_4 sout6_C_0 sout6_C_1; (try dsimp only)
      exact frame6 (fun _ K => (kernelRun6_C c _ _ _ _ _ _ _ _ _ _ _ _ _ _ _ p q _ _ _ _ _ _).2.2.2 Set.univ K)
        (fun _ => by iintro H; iexists _; iexact H) (owns_of_cover _ (scover6_C_0 c _ _ _ _ _ _ _ _ _ _ _ _ _ _ _ _ _ _ _ _ _ _ _)) (owns_of_cover _ (scover6_C_1 c _ _ _ _ _ _ _ _ _ _ _ _ _ _ _ _ _ _ _ _ _ _ _))
        (fun _ => owns_of_cover _ (cover6_C_4 c _ _ _ _ _ _ _ _ _ _ _ _ _ _ _ _ _ _ _ _ _ _ _))
    · have q := mt (hcond6_1 t).mp h1
      rw [Dat.leavesExact_idle (dat6 V c) 4 t (idle6_4 t q).1 (idle6_4 t q).2, outsAt6_B V c t h0 h1]
      unfold sout6_B_0 sout6_B_1; (try dsimp only)
      exact frame6 (fun d K => (kernelRun6_B c _ _ _ _ _ _ _ _ _ _ _ _ _ _ _ p q _ _ _ _ _ _).2.2.2 ((dat6 V c).before 4 t d) Set.univ K)
        (fun _ => by iintro H; iexact H) (owns_of_cover _ (scover6_B_0 c _ _ _ _ _ _ _ _ _ _ _ _ _ _ _ _ _ _ _ _ _ _ _)) (owns_of_cover _ (scover6_B_1 c _ _ _ _ _ _ _ _ _ _ _ _ _ _ _ _ _ _ _ _ _ _ _))
        (fun d => by iintro H; iexists d; iexact H)

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c :=
  Phi_weak6 V c _

end Cert.KernelIdeal.Fr

end
-- ==== Proof.KI.Fold6.lean ====
import proofs.«108427_j91276644975069_1_alg».proof.Proof.KI.Fold
import proofs.«108427_j91276644975069_1_alg».proof.Proof.KI.R6

noncomputable section

namespace Cert.KernelIdeal.Fr

open Cert.KernelIdeal Cert.KernelIdeal.Gen
open Idealize.ShloMosaic Idealize.ShloMosaic.TcCoe
open Idealize.ShloMosaic.Pipeline (withArrays arrRef)

variable {F : FTy → Type} [FloatOps F]
variable (m : (ℓ : Loc nD τ sig) → Buf (Elt F) ℓ) (ρ : Dev nD → PrngReg) (c : Dev nD)

def W12 : Valuation τ sig (Elt F) :=
  withArrays spec6 c (W11 m ρ c) fun w => (dat6 (V11 m ρ) c).arrAt w cfg6.N
theorem W12_arr (w : Fin cfg6.W) :
    W12 m ρ c (arrRef spec6 w) = (dat6 (V11 m ρ) c).arrAt w cfg6.N :=
  Pipeline.withArrays_arr _ launch6.win.arr_inj c _ _ w
theorem W12_of_ne (b : Ref sig .tc) (hb : ∀ w, arrRef spec6 w ≠ b) :
    W12 m ρ c b = W11 m ρ c b :=
  Pipeline.withArrays_of_ne _ c _ _ b hb
abbrev V12 : (c : Dev nD) → (b : Ref sig .tc) → Buf (Elt F) ((c : Thread nD τ).loc b) := fun c b => W12 m ρ c b
theorem hF6 (w : Fin cfg6.W) : (dat6 (V11 m ρ) c).arrAt w cfg6.N = V12 m ρ c (arrRef spec6 w) :=
  (W12_arr m ρ c w).symm
theorem hrest6 : ∀ b, b ∉ Finset.univ.image (arrRef spec6) → V12 m ρ c b = V11 m ρ c b :=
  fun b hb => W12_of_ne m ρ c b (ne_of_not_mem hb)

abbrev W13 : Dev nD → Valuation τ sig (Elt F) := fun c => StableHlo.after hostOps7 (W12 m ρ c)
theorem W13_of (r : Ref sig .tc) (h : r ∉ hostOps7_W) :
    W13 m ρ c r = W12 m ρ c r :=
  StableHlo.after_of_writes_sub hostOps7 _ hostOps7_writes h

-- Neither the last region nor the last host stretch touches a buffer that is no array of the one and not written by the other.
theorem W13_W11 {b : Ref sig .tc} (h : b ∉ hostOps7_W ∧ ∀ w, arrRef spec6 w ≠ b) :
    W13 m ρ c b = W11 m ρ c b :=
  (W13_of m ρ c b h.1).trans (W12_of_ne m ρ c b h.2)

theorem W13_kept {b : Ref sig .tc} (h : (b ∉ hostOps7_W ∧ ∀ w, arrRef spec6 w ≠ b) ∧ Kept b) :
    W13 m ρ c b = m ((c : Thread nD τ).loc b) :=
  (W13_W11 m ρ c h.1).trans (W11_kept m ρ c h.2)

theorem W13_main_arg0 : W13 m ρ c main_arg0 = m ((c : Thread nD τ).loc main_arg0) := W13_kept m ρ c (by decide)
theorem W13_main_arg1 : W13 m ρ c main_arg1 = m ((c : Thread nD τ).loc main_arg1) := W13_kept m ρ c (by decide)
theorem W13_main_arg2 : W13 m ρ c main_arg2 = m ((c : Thread nD τ).loc main_arg2) := W13_kept m ρ c (by decide)
theorem W13_main_arg3 : W13 m ρ c main_arg3 = m ((c : Thread nD τ).loc main_arg3) := W13_kept m ρ c (by decide)
theorem W13_main_arg4 : W13 m ρ c main_arg4 = m ((c : Thread nD τ).loc main_arg4) := W13_kept m ρ c (by decide)
theorem W13_main_arg5 : W13 m ρ c main_arg5 = m ((c : Thread nD τ).loc main_arg5) := W13_kept m ρ c (by decide)
theorem W13_main_arg6 : W13 m ρ c main_arg6 = m ((c : Thread nD τ).loc main_arg6) := W13_kept m ρ c (by decide)
theorem W13_main_arg7 : W13 m ρ c main_arg7 = m ((c : Thread nD τ).loc main_arg7) := W13_kept m ρ c (by decide)
theorem W13_main_arg8 : W13 m ρ c main_arg8 = m ((c : Thread nD τ).loc main_arg8) := W13_kept m ρ c (by decide)
theorem W13_main_arg9 : W13 m ρ c main_arg9 = m ((c : Thread nD τ).loc main_arg9) := W13_kept m ρ c (by decide)

-- Each array result is the output array of its region, which no later item writes.
theorem W13_main_v60 : W13 m ρ c main_v60 = (dat3 (V6 m ρ) c).arrAt 4 cfg3.N :=
  (W13_W11 m ρ c (by decide)).trans <| (W11_of m ρ c _ (by decide)).trans <| (W10_of_ne m ρ c _ (by decide)).trans <|
    (W9_of m ρ c _ (by decide)).trans <| (W8_of_ne m ρ c _ (by decide)).trans <| W7_arr m ρ c 4
theorem W13_main_v77 : W13 m ρ c main_v77 = (dat5 (V9 m ρ) c).arrAt 4 cfg5.N :=
  (W13_W11 m ρ c (by decide)).trans <| (W11_of m ρ c _ (by decide)).trans <| W10_arr m ρ c 4

end Cert.KernelIdeal.Fr

end
-- ==== Proof.KI.Regs.lean ====
import proofs.«108427_j91276644975069_1_alg».proof.Proof.KI.Fold6

noncomputable section

namespace Cert.KernelIdeal.Fr

open Cert.KernelIdeal Cert.KernelIdeal.Gen
open Idealize.ShloMosaic Idealize.ShloMosaic.TcCoe
open Idealize.SL Idealize.SL.RA Idealize.SL.BI
open Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem pdats_plain (p : Fin 7) (c : Dev nD) : (∀ w, (pdats m ρ p c).q w = fullShare) ∧ (∀ t, (pdats m ρ p c).owed t = 0)
    ∧ ∀ x, x ∈ (pdats m ρ p c).recorded 0 := by
  fin_cases p <;> exact ⟨fun _ => rfl, fun _ => rfl, fun _ => trivial⟩

-- one region as a segment: entered with the buffers at `W`, left with them at `W'`, which is `W` updated at the region's arrays
def regOf (p : Fin 7) (lf : Pipeline.LaunchFacts (nD := nD) (τ := τ) cfgs p) (W W' : Dev nD → Valuation τ sig (Elt F))
    (hb : ∀ c, BodyObligation (pdats m ρ p c) (defs₀ (F := F)) 𝒱₀ () Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hin : ∀ c, Pipeline.ΦA (cfgs p).spec c ⊢ (pdats m ρ p c).Φ 0 := by exact fun _ => .rfl)
    (hout : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m ρ p c).2.1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    have hsplit := Pipeline.arrays_of_unscopedBufs (p := p) (pcfgs (F := F)) adm (pdats m ρ) lf.win lf.arr_whole c
      ((pdats m ρ p c).share_full (pdats_plain m ρ p c).1) (fun b => W c b) (hA c)
    rw [Pipeline.unscopedBufs_held] at hsplit
    unfold Pipeline.prefHeld Pipeline.Dat.owesAt Pipeline.owesWithin
    rw [(pdats_plain m ρ p c).2.1, show (Finset.univ : Finset (Fin 0)) = ∅ from rfl, BI.bigSep_empty]
    iintro ⟨⟨Hub, Hp, %S, HO⟩, -⟩
    ihave H := hsplit $$ Hub
    icases H with ⟨Ha, Hrest⟩
    imodintro
    iframe
    isplitr; · iempintro
    iexists S; iframe
    ipureintro; exact fun _ _ => Or.inl ((pdats_plain m ρ p c).2.2 _)
  hin c := .trans (by unfold Pipeline.ΦA; iintro ⟨Hp, -, Hr⟩; iframe) (hin c)
  hout c := (hout c).trans (by rw [Pipeline.ownSems0_none]; unfold Pipeline.ΦA; iintro ⟨Hr, Hp⟩; iframe; iempintro)
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (pdats_plain m ρ p c).1)
      (fun b => W c b) (fun b => W' c b) ((pdats m ρ p c).arrAt · (cfgs p).N) (hF c) (hrest c)
    rw [Pipeline.unscopedBufs_held] at hjoin
    unfold Pipeline.Dat.owesAt Pipeline.owesWithin
    rw [(pdats_plain m ρ p c).2.1]
    iintro ⟨Ha, ⟨%S, -, HO⟩, HY, Hrest⟩
    imodintro
    isplitl [Ha Hrest]
    · iapply hjoin; iframe
    isplitl [HY]; · iexact HY
    iexists S; iexact HO

def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (hF0 m ρ) (hrest0 m ρ)
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (hF1 m ρ) (hrest1 m ρ)
def reg2 : Pipeline.RegionSeg (pcfgs (F := F)) adm (pdats m ρ) () defs₀ 𝒱₀ L lv 2 :=
  regOf m ρ 2 launch2 (W4 m ρ) (W5 m ρ) (body_obligation2 (V4 m ρ)) (fun _ _ => rfl) (hF2 m ρ) (hrest2 m ρ)
def reg3 : Pipeline.RegionSeg (pcfgs (F := F)) adm (pdats m ρ) () defs₀ 𝒱₀ L lv 3 :=
  regOf m ρ 3 launch3 (W6 m ρ) (W7 m ρ) (body_obligation3 (V6 m ρ)) (fun _ _ => rfl) (hF3 m ρ) (hrest3 m ρ)
def reg4 : Pipeline.RegionSeg (pcfgs (F := F)) adm (pdats m ρ) () defs₀ 𝒱₀ L lv 4 :=
  regOf m ρ 4 launch4 (W7 m ρ) (W8 m ρ) (body_obligation4 (V7 m ρ)) (fun _ _ => rfl) (hF4 m ρ) (hrest4 m ρ)
def reg5 : Pipeline.RegionSeg (pcfgs (F := F)) adm (pdats m ρ) () defs₀ 𝒱₀ L lv 5 :=
  regOf m ρ 5 launch5 (W9 m ρ) (W10 m ρ) (body_obligation5 (V9 m ρ)) (fun _ _ => rfl) (hF5 m ρ) (hrest5 m ρ)
def reg6 : Pipeline.RegionSeg (pcfgs (F := F)) adm (pdats m ρ) () defs₀ 𝒱₀ L lv 6 :=
  regOf m ρ 6 launch6 (W11 m ρ) (W12 m ρ) (body_obligation6 (V11 m ρ)) (fun _ _ => rfl) (hF6 m ρ) (hrest6 m ρ) (hin6 (V11 m ρ)) (hout6 (V11 m ρ))

end Cert.KernelIdeal.Fr

end
-- ==== Proof.KI.Run.lean ====
import proofs.«108427_j91276644975069_1_alg».proof.Proof.KI.Regs

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's 13 items in order: a host segment per stretch, from the contents at its boundary, and a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

set_option backward.isDefEq.respectTransparency.types false in
/-- @main terminates from `m`, and every final memory holds each unscoped buffer at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [← Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

-- The post of `run_all` implies this one: every argument is an unscoped buffer, and `W13` holds it as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).monotone (fun r h c =>
    ⟨(h c _ (mem_uc _ (by decide))).trans (W13_main_arg0 m ρ c), (h c _ (mem_uc _ (by decide))).trans (W13_main_arg1 m ρ c),
     (h c _ (mem_uc _ (by decide))).trans (W13_main_arg2 m ρ c), (h c _ (mem_uc _ (by decide))).trans (W13_main_arg3 m ρ c),
     (h c _ (mem_uc _ (by decide))).trans (W13_main_arg4 m ρ c), (h c _ (mem_uc _ (by decide))).trans (W13_main_arg5 m ρ c),
     (h c _ (mem_uc _ (by decide))).trans (W13_main_arg6 m ρ c), (h c _ (mem_uc _ (by decide))).trans (W13_main_arg7 m ρ c),
     (h c _ (mem_uc _ (by decide))).trans (W13_main_arg8 m ρ c), (h c _ (mem_uc _ (by decide))).trans (W13_main_arg9 m ρ c)⟩) (run_all m ρ)

end Cert.KernelIdeal.Fr

end
-- ==== Proof.K.R0.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_2 : Rect S5000x128 := Rect.unit ![0, 0] S5000x128.size inb_S5000x128_S5000x128_0_0

def out0_2 (x0 : Vec F S5000x64 .f32) (x1 : Vec F S64x128 .f32) : Vec F S5000x128 .f32 :=
  View.canon [⟨r0_2, k0_pay1 (View.ld x0 (Rect.unit ![0, 0] S5000x64.size inb_S5000x64_S5000x64_0_0))
    (View.ld x1 (Rect.unit ![0, 0] S64x128.size inb_S64x128_S64x128_0_0))⟩]

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (w : Fin cfg0.W) : (dat0 V c).A w = V c (Pipeline.arrRef spec0 w) := rfl

theorem after0_2 (t : Fin cfg0.N) : (dat0 V c).after 2 t = out0_2 (iblk0 V c 0 t) (iblk0 V c 1 t) := by dsimp only [dat0]

theorem before0_0 (t : Fin cfg0.N) (d) : (dat0 V c).before 0 t d = iblk0 V c 0 t :=
  (dat0 V c).before_in_eq_fetched 0 rfl (fun _ => rfl) (fun _ _ _ => rfl) (fun _ => rfl) t d

theorem before0_1 (t : Fin cfg0.N) (d) : (dat0 V c).before 1 t d = iblk0 V c 1 t :=
  (dat0 V c).before_in_eq_fetched 1 rfl (fun _ => rfl) (fun _ _ _ => rfl) (fun _ => rfl) t d

-- The body leaves its two inputs as they were and their product in the output; whatever else is held passes through.
theorem sound_kernel0 {E : Set ℕ} (i : grid0.Coords) {arg0 : Memref sig .tc .vmem S5000x64 .f32} (harg0 : arg0.IsWhole)
    {arg1 : Memref sig .tc .vmem S64x128 .f32} (harg1 : arg1.IsWhole) {arg2 : Memref sig .tc .vmem S5000x128 .f32} (harg2 : arg2.IsWhole)
    {D0 D1 D2 : Type} {X0 : D0 → Vec F S5000x64 .f32} {X1 : D1 → Vec F S64x128 .f32} {X2 : D2 → Vec F S5000x128 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc0__matmul_kernel i arg0 harg0 arg1 harg1 arg2 harg2) fun _ =>
        iprop(R ∗ R' ∗ owns c.tc arg0 fullShare x0 ∗ owns c.tc arg1 fullShare x1
          ∗ owns c.tc arg2 fullShare (out0_2 x0 x1)) := by
  rw [cc0__matmul_kernel_eq_skeleton]; unfold cc0__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x128.size rfl)

theorem body_obligation0 : BodyObligation (dat0 (F := F) V c) (defs₀ (F := F)) Variants.none () Set.univ := fun t => by
  rw [bigSep_W0, bigSep_W0, after0_2]
  exact sound_kernel0 c (grid0.coords t) (stage_whole0 0 _) (stage_whole0 1 _) (stage_whole0 2 _) (before0_0 V c t) (before0_1 V c t)

end Cert.Kernel.Fr

end
-- ==== Proof.K.R1.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.TableIdle

noncomputable section

namespace Cert.Kernel.Fr

open Cert.Kernel Cert.Kernel.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

-- The output block: the combine of the four input blocks, written whole.
def out1_4 (x0 : Vec F S5000x128 .f32) (x1 : Vec F S5000x128 .f32) (x2 : Vec F S5000x1 .f32) (x3 : Vec F S1x128 .f32) : Vec F S5000x128 .f32 :=
  View.canon [⟨r1_0, k1_pay1 (View.ld x0 r1_0) (View.ld x1 r1_0) (View.ld x2 r1_1) (View.ld x3 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_4 (c : Dev nD) (t : Fin cfg1.N) :
    (dat1 V c).after 4 t = out1_4 (iblk1 V c 0 t) (iblk1 V c 1 t) (iblk1 V c 2 t) (iblk1 V c 3 t) := by dsimp only [dat1]

theorem before1 (c : Dev nD) (t : Fin cfg1.N) (w : Fin cfg1.W) (hw : w ≠ 4) : ∀ d, (dat1 V c).before w t d = (dat1 V c).after w t := by
  fin_cases w <;> first
    | exact absurd rfl hw
    | exact fun d => ((dat1 V c).before_in_eq_fetched _ rfl (fun _ => rfl) (fun _ _ _ => rfl) (fun _ => by dsimp only [dat1]; rfl) t d).trans (by dsimp only [dat1]; rfl)

theorem body_obligation1 (c : Dev nD) : BodyObligation (dat1 (F := F) V c) (defs₀ (F := F)) Variants.none () Set.univ := fun t => by
  rw [bigSep_W1, bigSep_W1]
  simp (disch := decide) only [before1]
  show _ ⊢ wp _ _ _ (bodyAt1 t) _
  unfold bodyAt1
  rw [cc1_kernel_eq_skeleton]; unfold cc1_kernel_skel
  dsimp only [dat1, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x128.size rfl)).trans (by sl_unfold_run_names; simp only [View.readAt_rep]; rfl)

end Cert.Kernel.Fr

end
-- ==== Proof.K.R2.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_2 : Rect S5000x64 := Rect.unit ![0, 0] S5000x64.size inb_S5000x64_S5000x64_0_0

def out2_2 (x0 : Vec F S5000x128 .f32) (x1 : Vec F S128x64 .f32) : Vec F S5000x64 .f32 :=
  View.canon [⟨r2_2, k2_pay1 (View.ld x0 (Rect.unit ![0, 0] S5000x128.size inb_S5000x128_S5000x128_0_0))
    (View.ld x1 (Rect.unit ![0, 0] S128x64.size inb_S128x64_S128x64_0_0))⟩]

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (w : Fin cfg2.W) : (dat2 V c).A w = V c (Pipeline.arrRef spec2 w) := rfl

theorem after2_2 (t : Fin cfg2.N) : (dat2 V c).after 2 t = out2_2 (iblk2 V c 0 t) (iblk2 V c 1 t) := by dsimp only [dat2]

theorem before2_0 (t : Fin cfg2.N) (d) : (dat2 V c).before 0 t d = iblk2 V c 0 t :=
  (dat2 V c).before_in_eq_fetched 0 rfl (fun _ => rfl) (fun _ _ _ => rfl) (fun _ => rfl) t d

theorem before2_1 (t : Fin cfg2.N) (d) : (dat2 V c).before 1 t d = iblk2 V c 1 t :=
  (dat2 V c).before_in_eq_fetched 1 rfl (fun _ => rfl) (fun _ _ _ => rfl) (fun _ => rfl) t d

-- The body leaves its two inputs as they were and their product in the output; whatever else is held passes through.
theorem sound_kernel2 {E : Set ℕ} (i : grid2.Coords) {arg0 : Memref sig .tc .vmem S5000x128 .f32} (harg0 : arg0.IsWhole)
    {arg1 : Memref sig .tc .vmem S128x64 .f32} (harg1 : arg1.IsWhole) {arg2 : Memref sig .tc .vmem S5000x64 .f32} (harg2 : arg2.IsWhole)
    {D0 D1 D2 : Type} {X0 : D0 → Vec F S5000x128 .f32} {X1 : D1 → Vec F S128x64 .f32} {X2 : D2 → Vec F S5000x64 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc2__matmul_kernel i arg0 harg0 arg1 harg1 arg2 harg2) fun _ =>
        iprop(R ∗ R' ∗ owns c.tc arg0 fullShare x0 ∗ owns c.tc arg1 fullShare x1
          ∗ owns c.tc arg2 fullShare (out2_2 x0 x1)) := by
  rw [cc2__matmul_kernel_eq_skeleton]; unfold cc2__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x64.size rfl)

theorem body_obligation2 : BodyObligation (dat2 (F := F) V c) (defs₀ (F := F)) Variants.none () Set.univ := fun t => by
  rw [bigSep_W2, bigSep_W2, after2_2]
  exact sound_kernel2 c (grid2.coords t) (stage_whole2 0 _) (stage_whole2 1 _) (stage_whole2 2 _) (before2_0 V c t) (before2_1 V c t)

end Cert.Kernel.Fr

end
-- ==== Proof.K.R3.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.TableIdle

noncomputable section

namespace Cert.Kernel.Fr

open Cert.Kernel Cert.Kernel.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x64 := Rect.unit (s := S5000x64) ![0, 0] S5000x64.size inb_S5000x64_S5000x64_0_0
abbrev r3_1 : Rect S5000x1 := Rect.unit (s := S5000x1) ![0, 0] S5000x1.size inb_S5000x1_S5000x1_0_0
abbrev r3_2 : Rect S1x64 := Rect.unit (s := S1x64) ![0, 0] S1x64.size inb_S1x64_S1x64_0_0

-- The output block: the combine of the four input blocks, written whole.
def out3_4 (x0 : Vec F S5000x64 .f32) (x1 : Vec F S5000x64 .f32) (x2 : Vec F S5000x1 .f32) (x3 : Vec F S1x64 .f32) : Vec F S5000x64 .f32 :=
  View.canon [⟨r3_0, k3_pay1 (View.ld x0 r3_0) (View.ld x1 r3_0) (View.ld x2 r3_1) (View.ld x3 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem after3_4 (c : Dev nD) (t : Fin cfg3.N) :
    (dat3 V c).after 4 t = out3_4 (iblk3 V c 0 t) (iblk3 V c 1 t) (iblk3 V c 2 t) (iblk3 V c 3 t) := by dsimp only [dat3]

theorem before3 (c : Dev nD) (t : Fin cfg3.N) (w : Fin cfg3.W) (hw : w ≠ 4) : ∀ d, (dat3 V c).before w t d = (dat3 V c).after w t := by
  fin_cases w <;> first
    | exact absurd rfl hw
    | exact fun d => ((dat3 V c).before_in_eq_fetched _ rfl (fun _ => rfl) (fun _ _ _ => rfl) (fun _ => by dsimp only [dat3]; rfl) t d).trans (by dsimp only [dat3]; rfl)

theorem body_obligation3 (c : Dev nD) : BodyObligation (dat3 (F := F) V c) (defs₀ (F := F)) Variants.none () Set.univ := fun t => by
  rw [bigSep_W3, bigSep_W3]
  simp (disch := decide) only [before3]
  show _ ⊢ wp _ _ _ (bodyAt3 t) _
  unfold bodyAt3
  rw [cc3_kernel_eq_skeleton]; unfold cc3_kernel_skel
  dsimp only [dat3, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x64.size rfl)).trans (by sl_unfold_run_names; simp only [View.readAt_rep]; rfl)

end Cert.Kernel.Fr

end
-- ==== Proof.K.R4.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]
  (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_2 : Rect S5000x64 := Rect.unit ![0, 0] S5000x64.size inb_S5000x64_S5000x64_0_0

def out4_2 (x0 : Vec F S5000x128 .f32) (x1 : Vec F S128x64 .f32) : Vec F S5000x64 .f32 :=
  View.canon [⟨r4_2, k4_pay1 (View.ld x0 (Rect.unit ![0, 0] S5000x128.size inb_S5000x128_S5000x128_0_0))
    (View.ld x1 (Rect.unit ![0, 0] S128x64.size inb_S128x64_S128x64_0_0))⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (w : Fin cfg4.W) : (dat4 V c).A w = V c (Pipeline.arrRef spec4 w) := rfl

theorem after4_2 (t : Fin cfg4.N) : (dat4 V c).after 2 t = out4_2 (iblk4 V c 0 t) (iblk4 V c 1 t) := by dsimp only [dat4]

theorem before4_0 (t : Fin cfg4.N) (d) : (dat4 V c).before 0 t d = iblk4 V c 0 t :=
  (dat4 V c).before_in_eq_fetched 0 rfl (fun _ => rfl) (fun _ _ _ => rfl) (fun _ => rfl) t d

theorem before4_1 (t : Fin cfg4.N) (d) : (dat4 V c).before 1 t d = iblk4 V c 1 t :=
  (dat4 V c).before_in_eq_fetched 1 rfl (fun _ => rfl) (fun _ _ _ => rfl) (fun _ => rfl) t d

-- The body leaves its two inputs as they were and their product in the output; whatever else is held passes through.
theorem sound_kernel4 {E : Set ℕ} (i : grid4.Coords) {arg0 : Memref sig .tc .vmem S5000x128 .f32} (harg0 : arg0.IsWhole)
    {arg1 : Memref sig .tc .vmem S128x64 .f32} (harg1 : arg1.IsWhole) {arg2 : Memref sig .tc .vmem S5000x64 .f32} (harg2 : arg2.IsWhole)
    {D0 D1 D2 : Type} {X0 : D0 → Vec F S5000x128 .f32} {X1 : D1 → Vec F S128x64 .f32} {X2 : D2 → Vec F S5000x64 .f32} {x0 x1}
    (h0 : ∀ d, X0 d = x0) (h1 : ∀ d, X1 d = x1) {R R' : sProp (MT nD τ sig Unit (Elt F) ℕ (UR sig nD τ) ℕ)} :
    iprop(R ∗ R' ∗ (∃ d, owns c.tc arg0 fullShare (X0 d)) ∗ (∃ d, owns c.tc arg1 fullShare (X1 d))
        ∗ ∃ d, owns c.tc arg2 fullShare (X2 d))
      ⊢ wp frame (wpE (defs₀ (F := F)) Variants.none c none) E (cc4__matmul_kernel i arg0 harg0 arg1 harg1 arg2 harg2) fun _ =>
        iprop(R ∗ R' ∗ owns c.tc arg0 fullShare x0 ∗ owns c.tc arg1 fullShare x1
          ∗ owns c.tc arg2 fullShare (out4_2 x0 x1)) := by
  rw [cc4__matmul_kernel_eq_skeleton]; unfold cc4__matmul_kernel_skel owns
  simp only [h0, h1]
  iintro ⟨HR, HR', ⟨%_, %f0, %hf0, H0⟩, ⟨%_, %f1, %hf1, H1⟩, %_, %f2, -, H2⟩
  subst hf0 hf1
  sl_exec
  sl_step
  iframe
  isplitl [H0]
  · iexists f0; iframe; ipureintro; rfl
  isplitl [H1]
  · iexists f1; iframe; ipureintro; rfl
  iexists _; iframe; ipureintro
  exact View.read_writes_eq_canon _ _ _ (View.cover_of_tiled _ S5000x64.size rfl)

theorem body_obligation4 : BodyObligation (dat4 (F := F) V c) (defs₀ (F := F)) Variants.none () Set.univ := fun t => by
  rw [bigSep_W4, bigSep_W4, after4_2]
  exact sound_kernel4 c (grid4.coords t) (stage_whole4 0 _) (stage_whole4 1 _) (stage_whole4 2 _) (before4_0 V c t) (before4_1 V c t)

end Cert.Kernel.Fr

end
-- ==== Proof.K.R5.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.TableIdle

noncomputable section

namespace Cert.Kernel.Fr

open Cert.Kernel Cert.Kernel.Gen Idealize.ShloMosaic Idealize.ShloMosaic.TcCoe Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block of its array at grid point `t`, the arrays at contents `V`.
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S5000x1 := Rect.unit (s := S5000x1) ![0, 0] S5000x1.size inb_S5000x1_S5000x1_0_0
abbrev r5_2 : Rect S1x64 := Rect.unit (s := S1x64) ![0, 0] S1x64.size inb_S1x64_S1x64_0_0

-- The output block: the combine of the four input blocks, written whole.
def out5_4 (x0 : Vec F S5000x64 .f32) (x1 : Vec F S5000x64 .f32) (x2 : Vec F S5000x1 .f32) (x3 : Vec F S1x64 .f32) : Vec F S5000x64 .f32 :=
  View.canon [⟨r5_0, k5_pay1 (View.ld x0 r5_0) (View.ld x1 r5_0) (View.ld x2 r5_1) (View.ld x3 r5_2)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem after5_4 (c : Dev nD) (t : Fin cfg5.N) :
    (dat5 V c).after 4 t = out5_4 (iblk5 V c 0 t) (iblk5 V c 1 t) (iblk5 V c 2 t) (iblk5 V c 3 t) := by dsimp only [dat5]

theorem before5 (c : Dev nD) (t : Fin cfg5.N) (w : Fin cfg5.W) (hw : w ≠ 4) : ∀ d, (dat5 V c).before w t d = (dat5 V c).after w t := by
  fin_cases w <;> first
    | exact absurd rfl hw
    | exact fun d => ((dat5 V c).before_in_eq_fetched _ rfl (fun _ => rfl) (fun _ _ _ => rfl) (fun _ => by dsimp only [dat5]; rfl) t d).trans (by dsimp only [dat5]; rfl)

theorem body_obligation5 (c : Dev nD) : BodyObligation (dat5 (F := F) V c) (defs₀ (F := F)) Variants.none () Set.univ := fun t => by
  rw [bigSep_W5, bigSep_W5]
  simp (disch := decide) only [before5]
  show _ ⊢ wp _ _ _ (bodyAt5 t) _
  unfold bodyAt5
  rw [cc5_kernel_eq_skeleton]; unfold cc5_kernel_skel
  dsimp only [dat5, Dat.owesAt, Dat.bound]
  rw [owns_eq_rep, owns_eq_rep, owns_eq_rep, owns_eq_rep]; unfold owns
  iintro ⟨HΦ, Ho, ⟨%_, H0⟩, ⟨%_, H1⟩, ⟨%_, H2⟩, ⟨%_, H3⟩, ⟨%_, %f4, -, H4⟩⟩
  sl_exec
  sl_step
  iframe
  iexists _
  iframe
  ipureintro
  exact (View.read_writes_eq_canon _ _ _ (View.cover_of_tiled _ S5000x64.size rfl)).trans (by sl_unfold_run_names; simp only [View.readAt_rep]; rfl)

end Cert.Kernel.Fr

end
-- ==== Proof.K.Fold.lean ====
import proofs.«108427_j91276644975069_1_alg».proof.Proof.K.R0
import proofs.«108427_j91276644975069_1_alg».proof.Proof.K.R1
import proofs.«108427_j91276644975069_1_alg».proof.Proof.K.R2
import proofs.«108427_j91276644975069_1_alg».proof.Proof.K.R3
import proofs.«108427_j91276644975069_1_alg».proof.Proof.K.R4
import proofs.«108427_j91276644975069_1_alg».proof.Proof.K.R5
import proofs.«108427_j91276644975069_1_alg».proof.Proof.Gen.Kernel.Regions

noncomputable section

namespace Cert.Kernel.Fr

open Cert.Kernel Cert.Kernel.Gen
open Idealize.ShloMosaic Idealize.ShloMosaic.TcCoe
open Idealize.ShloMosaic.Pipeline (Dat Cfg WinSpec withArrays arrRef)

variable {F : FTy → Type} [FloatOps F]

theorem ne_of_not_mem {gr W : ℕ} {win : Fin W → WinSpec sig gr} {b : Ref sig .tc}
    (hb : b ∉ Finset.univ.image (arrRef win)) (w : Fin W) : arrRef win w ≠ b :=
  fun e => hb (Finset.mem_image.mpr ⟨w, Finset.mem_univ _, e⟩)

/-- Every window of the region on `b` is an input window. -/
abbrev In (cfg : Cfg sig Λ₀) (b : Ref sig .tc) : Prop := ∀ w, arrRef cfg.spec w = b → (cfg.win w).isOut = false

-- By cases on whether `b` is one of the region's arrays: each such is only read (`h`), so `arrAt` is constant there.
theorem keep {cfg : Cfg sig Λ₀} {c : Dev nD} (d : Dat τ (Elt F) Unit ℕ (UR sig nD τ) ℕ cfg c) {V : Valuation τ sig (Elt F)}
    (inj : Function.Injective (arrRef cfg.spec)) (hA : ∀ w, d.A w = V (arrRef cfg.spec w))
    {b : Ref sig .tc} (h : In cfg b) :
    withArrays cfg.spec c V (fun w => d.arrAt w cfg.N) b = V b := by
  by_cases hb : ∃ w, arrRef cfg.spec w = b
  · obtain ⟨w, rfl⟩ := hb
    rw [Pipeline.withArrays_arr _ inj, d.arrAt_in w (h w rfl), hA]
  · exact Pipeline.withArrays_of_ne _ c V _ b fun w e => hb ⟨w, e⟩

variable (m : (ℓ : Loc nD τ sig) → Buf (Elt F) ℓ) (ρ : Dev nD → PrngReg) (c : Dev nD)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (r : Ref sig .tc) (h : r ∉ hostOps0_W) :
    W1 m ρ c r = W0 m ρ c r :=
  StableHlo.after_of_writes_sub hostOps0 _ hostOps0_writes h

def W2 : Valuation τ sig (Elt F) :=
  withArrays spec0 c (W1 m ρ c) fun w => (dat0 (V1 m ρ) c).arrAt w cfg0.N
theorem W2_arr (w : Fin cfg0.W) :
    W2 m ρ c (arrRef spec0 w) = (dat0 (V1 m ρ) c).arrAt w cfg0.N :=
  Pipeline.withArrays_arr _ launch0.win.arr_inj c _ _ w
theorem W2_of_ne (b : Ref sig .tc) (hb : ∀ w, arrRef spec0 w ≠ b) :
    W2 m ρ c b = W1 m ρ c b :=
  Pipeline.withArrays_of_ne _ c _ _ b hb
abbrev V2 : (c : Dev nD) → (b : Ref sig .tc) → Buf (Elt F) ((c : Thread nD τ).loc b) := fun c b => W2 m ρ c b
theorem hF0 (w : Fin cfg0.W) : (dat0 (V1 m ρ) c).arrAt w cfg0.N = V2 m ρ c (arrRef spec0 w) :=
  (W2_arr m ρ c w).symm
theorem hrest0 : ∀ b, b ∉ Finset.univ.image (arrRef spec0) → V2 m ρ c b = V1 m ρ c b :=
  fun b hb => W2_of_ne m ρ c b (ne_of_not_mem hb)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (r : Ref sig .tc) (h : r ∉ hostOps1_W) :
    W3 m ρ c r = W2 m ρ c r :=
  StableHlo.after_of_writes_sub hostOps1 _ hostOps1_writes h

def W4 : Valuation τ sig (Elt F) :=
  withArrays spec1 c (W3 m ρ c) fun w => (dat1 (V3 m ρ) c).arrAt w cfg1.N
theorem W4_arr (w : Fin cfg1.W) :
    W4 m ρ c (arrRef spec1 w) = (dat1 (V3 m ρ) c).arrAt w cfg1.N :=
  Pipeline.withArrays_arr _ launch1.win.arr_inj c _ _ w
theorem W4_of_ne (b : Ref sig .tc) (hb : ∀ w, arrRef spec1 w ≠ b) :
    W4 m ρ c b = W3 m ρ c b :=
  Pipeline.withArrays_of_ne _ c _ _ b hb
abbrev V4 : (c : Dev nD) → (b : Ref sig .tc) → Buf (Elt F) ((c : Thread nD τ).loc b) := fun c b => W4 m ρ c b
theorem hF1 (w : Fin cfg1.W) : (dat1 (V3 m ρ) c).arrAt w cfg1.N = V4 m ρ c (arrRef spec1 w) :=
  (W4_arr m ρ c w).symm
theorem hrest1 : ∀ b, b ∉ Finset.univ.image (arrRef spec1) → V4 m ρ c b = V3 m ρ c b :=
  fun b hb => W4_of_ne m ρ c b (ne_of_not_mem hb)

def W5 : Valuation τ sig (Elt F) :=
  withArrays spec2 c (W4 m ρ c) fun w => (dat2 (V4 m ρ) c).arrAt w cfg2.N
theorem W5_arr (w : Fin cfg2.W) :
    W5 m ρ c (arrRef spec2 w) = (dat2 (V4 m ρ) c).arrAt w cfg2.N :=
  Pipeline.withArrays_arr _ launch2.win.arr_inj c _ _ w
theorem W5_of_ne (b : Ref sig .tc) (hb : ∀ w, arrRef spec2 w ≠ b) :
    W5 m ρ c b = W4 m ρ c b :=
  Pipeline.withArrays_of_ne _ c _ _ b hb
abbrev V5 : (c : Dev nD) → (b : Ref sig .tc) → Buf (Elt F) ((c : Thread nD τ).loc b) := fun c b => W5 m ρ c b
theorem hF2 (w : Fin cfg2.W) : (dat2 (V4 m ρ) c).arrAt w cfg2.N = V5 m ρ c (arrRef spec2 w) :=
  (W5_arr m ρ c w).symm
theorem hrest2 : ∀ b, b ∉ Finset.univ.image (arrRef spec2) → V5 m ρ c b = V4 m ρ c b :=
  fun b hb => W5_of_ne m ρ c b (ne_of_not_mem hb)

abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
theorem W6_of (r : Ref sig .tc) (h : r ∉ hostOps3_W) :
    W6 m ρ c r = W5 m ρ c r :=
  StableHlo.after_of_writes_sub hostOps3 _ hostOps3_writes h

def W7 : Valuation τ sig (Elt F) :=
  withArrays spec3 c (W6 m ρ c) fun w => (dat3 (V6 m ρ) c).arrAt w cfg3.N
theorem W7_arr (w : Fin cfg3.W) :
    W7 m ρ c (arrRef spec3 w) = (dat3 (V6 m ρ) c).arrAt w cfg3.N :=
  Pipeline.withArrays_arr _ launch3.win.arr_inj c _ _ w
theorem W7_of_ne (b : Ref sig .tc) (hb : ∀ w, arrRef spec3 w ≠ b) :
    W7 m ρ c b = W6 m ρ c b :=
  Pipeline.withArrays_of_ne _ c _ _ b hb
abbrev V7 : (c : Dev nD) → (b : Ref sig .tc) → Buf (Elt F) ((c : Thread nD τ).loc b) := fun c b => W7 m ρ c b
theorem hF3 (w : Fin cfg3.W) : (dat3 (V6 m ρ) c).arrAt w cfg3.N = V7 m ρ c (arrRef spec3 w) :=
  (W7_arr m ρ c w).symm
theorem hrest3 : ∀ b, b ∉ Finset.univ.image (arrRef spec3) → V7 m ρ c b = V6 m ρ c b :=
  fun b hb => W7_of_ne m ρ c b (ne_of_not_mem hb)

def W8 : Valuation τ sig (Elt F) :=
  withArrays spec4 c (W7 m ρ c) fun w => (dat4 (V7 m ρ) c).arrAt w cfg4.N
theorem W8_arr (w : Fin cfg4.W) :
    W8 m ρ c (arrRef spec4 w) = (dat4 (V7 m ρ) c).arrAt w cfg4.N :=
  Pipeline.withArrays_arr _ launch4.win.arr_inj c _ _ w
theorem W8_of_ne (b : Ref sig .tc) (hb : ∀ w, arrRef spec4 w ≠ b) :
    W8 m ρ c b = W7 m ρ c b :=
  Pipeline.withArrays_of_ne _ c _ _ b hb
abbrev V8 : (c : Dev nD) → (b : Ref sig .tc) → Buf (Elt F) ((c : Thread nD τ).loc b) := fun c b => W8 m ρ c b
theorem hF4 (w : Fin cfg4.W) : (dat4 (V7 m ρ) c).arrAt w cfg4.N = V8 m ρ c (arrRef spec4 w) :=
  (W8_arr m ρ c w).symm
theorem hrest4 : ∀ b, b ∉ Finset.univ.image (arrRef spec4) → V8 m ρ c b = V7 m ρ c b :=
  fun b hb => W8_of_ne m ρ c b (ne_of_not_mem hb)

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem W9_of (r : Ref sig .tc) (h : r ∉ hostOps5_W) :
    W9 m ρ c r = W8 m ρ c r :=
  StableHlo.after_of_writes_sub hostOps5 _ hostOps5_writes h

def W10 : Valuation τ sig (Elt F) :=
  withArrays spec5 c (W9 m ρ c) fun w => (dat5 (V9 m ρ) c).arrAt w cfg5.N
theorem W10_arr (w : Fin cfg5.W) :
    W10 m ρ c (arrRef spec5 w) = (dat5 (V9 m ρ) c).arrAt w cfg5.N :=
  Pipeline.withArrays_arr _ launch5.win.arr_inj c _ _ w
theorem W10_of_ne (b : Ref sig .tc) (hb : ∀ w, arrRef spec5 w ≠ b) :
    W10 m ρ c b = W9 m ρ c b :=
  Pipeline.withArrays_of_ne _ c _ _ b hb
abbrev V10 : (c : Dev nD) → (b : Ref sig .tc) → Buf (Elt F) ((c : Thread nD τ).loc b) := fun c b => W10 m ρ c b
theorem hF5 (w : Fin cfg5.W) : (dat5 (V9 m ρ) c).arrAt w cfg5.N = V10 m ρ c (arrRef spec5 w) :=
  (W10_arr m ρ c w).symm
theorem hrest5 : ∀ b, b ∉ Finset.univ.image (arrRef spec5) → V10 m ρ c b = V9 m ρ c b :=
  fun b hb => W10_of_ne m ρ c b (ne_of_not_mem hb)

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
theorem W11_of (r : Ref sig .tc) (h : r ∉ hostOps6_W) :
    W11 m ρ c r = W10 m ρ c r :=
  StableHlo.after_of_writes_sub hostOps6 _ hostOps6_writes h

/-- No host stretch before the last region writes `b`; regions 0, 2, 4 meet it through input windows only, regions 1, 3, 5 not at all. -/
abbrev Kept (b : Ref sig .tc) : Prop :=
  b ∉ hostOps0_W ∧ In cfg0 b ∧ b ∉ hostOps1_W ∧ (∀ w, arrRef spec1 w ≠ b) ∧ In cfg2 b ∧ b ∉ hostOps3_W
    ∧ (∀ w, arrRef spec3 w ≠ b) ∧ In cfg4 b ∧ b ∉ hostOps5_W ∧ (∀ w, arrRef spec5 w ≠ b) ∧ b ∉ hostOps6_W

-- Such a buffer holds its launch contents at the last region's entry: the fold walks back step by step.
theorem W11_kept {b : Ref sig .tc} (h : Kept b) : W11 m ρ c b = m ((c : Thread nD τ).loc b) := by
  obtain ⟨h0, h1, h2, h3, h4, h5, h6, h7, h8, h9, h10⟩ := h
  exact (W11_of m ρ c b h10).trans <| (W10_of_ne m ρ c b h9).trans <| (W9_of m ρ c b h8).trans <|
    (keep (dat4 (V7 m ρ) c) launch4.win.arr_inj (A_eq4 _ c) h7).trans <| (W7_of_ne m ρ c b h6).trans <|
    (W6_of m ρ c b h5).trans <| (keep (dat2 (V4 m ρ) c) launch2.win.arr_inj (A_eq2 _ c) h4).trans <|
    (W4_of_ne m ρ c b h3).trans <| (W3_of m ρ c b h2).trans <|
    (keep (dat0 (V1 m ρ) c) launch0.win.arr_inj (A_eq0 _ c) h1).trans <| W1_of m ρ c b h0

theorem W11_main_arg8 : W11 m ρ c main_arg8 = m ((c : Thread nD τ).loc main_arg8) :=
  W11_kept m ρ c (by decide)
theorem W11_main_arg9 : W11 m ρ c main_arg9 = m ((c : Thread nD τ).loc main_arg9) :=
  W11_kept m ρ c (by decide)

end Cert.Kernel.Fr

end
-- ==== Proof.K.R6Runs.lean ====
import proofs.«108427_j91276644975069_1_alg».proof.Proof.Gen.Kernel.Launch
import proofs.«108427_j91276644975069_1_alg».proof.Proof.Gen.Kernel.Skeleton
import proofs.«108427_j91276644975069_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 20 = 0 :=
  (by decide +kernel : ∀ t : Fin grid6.N, cond6_0 (grid6.coords t) ↔ t.val % 20 = 0)

abbrev cond6_1 (i : grid6.Coords) : Prop := k6_cond2 i = 1#1

theorem hcond6_1 : ∀ t : Fin cfg6.N, cond6_1 (grid6.coords t) ↔ t.val % 20 = 19 :=
  (by decide +kernel : ∀ t : Fin grid6.N, cond6_1 (grid6.coords t) ↔ t.val % 20 = 19)

theorem liveAt6_4_C : ∀ t : Fin cfg6.N, ¬cond6_0 (grid6.coords t) → cond6_1 (grid6.coords t) → cfg6.idle 4 (grid6.coords t) = false := by decide +kernel

abbrev VO6_4 : View sig .tc .vmem S1x1 .f32 := (Memref.whole cc6_stg4_0 : Memref sig .tc .vmem S1x1 .f32).view

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1 .f32 := win6_4.stage (cfg6.slots t 4)
abbrev hs6_4 (t : Fin cfg6.N) : (ms6_4 t).IsWhole := hstage6_4 ((cfg6.slots t 4).cast nbuf6_4)

abbrev scM6_0 : Memref sig .tc .vmem S1x1 .f32 := Memref.whole cc6_scratch0
abbrev scM6_1 : Memref sig .tc .vmem S1x1 .f32 := Memref.whole cc6_scratch1

abbrev VS6_0 : View sig .tc .vmem S1x1 .f32 := scM6_0.view
abbrev VS6_1 : View sig .tc .vmem S1x1 .f32 := scM6_1.view

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut spec6 c [cc6_scratch0, cc6_scratch1]) ∗ (∃ r, prngReg c r)) := by
  unfold Pipeline.ΦA; rw [scopedRest6_split]; simp only [scM6_0, scM6_1, owns_whole]; try rfl

end Cert.Kernel.Fr

end
-- ==== Proof.K.R6RunA.lean ====
import proofs.«108427_j91276644975069_1_alg».proof.Proof.K.R6Runs

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_A (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond6_0 i) (hc1 : ¬cond6_1 i)
    (x0 x1 x2 x3 : Vec F S5000x64 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨[], ?_, ?_, fun xi4 E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Fr

end
-- ==== Proof.K.R6RunB.lean ====
import proofs.«108427_j91276644975069_1_alg».proof.Proof.K.R6RunA

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_B (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond6_0 i) (hc1 : ¬cond6_1 i)
    (x0 x1 x2 x3 : Vec F S5000x64 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨[], ?_, ?_, fun xi4 E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    iexists _; iexact HS1

end Cert.Kernel.Fr

end
-- ==== Proof.K.R6RunC.lean ====
import proofs.«108427_j91276644975069_1_alg».proof.Proof.K.R6RunB

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable def kernelRun6_C (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x64 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond6_0 i) (hc1 : cond6_1 i)
    (x0 x1 x2 x3 : Vec F S5000x64 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc6__recon_loss_kernel i arg1 harg1 arg2 harg2 arg3 harg3 arg4 harg4 arg5 harg5 arg6 harg6 arg7 harg7) K } := by
  refine ⟨?_, ?_, ?_, fun E K => ?run⟩
  case run =>
    simp only [cc6__recon_loss_kernel_eq_skeleton]; unfold cc6__recon_loss_kernel_skel
    simp only [k6_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.Kernel.Fr

end
-- ==== Proof.K.R6.lean ====
import proofs.«108427_j91276644975069_1_alg».proof.Proof.K.R6RunC

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid6.Coords)
  (arg1 : Memref sig .tc .vmem S5000x64 .f32) (harg1 : arg1.IsWhole) (arg2 : Memref sig .tc .vmem S5000x64 .f32) (harg2 : arg2.IsWhole)
  (arg3 : Memref sig .tc .vmem S5000x64 .f32) (harg3 : arg3.IsWhole) (arg4 : Memref sig .tc .vmem S5000x64 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x1 .f32) (harg7 : arg7.IsWhole)

section
variable (hc0 : cond6_0 i) (hc1 : ¬cond6_1 i) (x0 x1 x2 x3 : Vec F S5000x64 .f32)

def out6_A_4 : Vec F S1x1 .f32 :=
  VO6_4.read (Elt F) (VO6_4.writes (Elt F) VO6_4.junk (kernelRun6_A c i arg1 harg1 arg2 harg2 arg3 harg3 arg4 harg4 arg5 harg5 arg6 harg6 arg7 harg7 hc0 hc1 x0 x1 x2 x3).1)

theorem scover6_A_0 (y : S1x1.Idx) : ∃ pc ∈ (kernelRun6_A c i arg1 harg1 arg2 harg2 arg3 harg3 arg4 harg4 arg5 harg5 arg6 harg6 arg7 harg7 hc0 hc1 x0 x1 x2 x3).2.1, y ∈ pc.1.set :=
  View.cover_of_tiledL _ S1x1.size (by sl_kernel_rfl) y

def sout6_A_0 : Vec F S1x1 .f32 :=
  VS6_0.read (Elt F) (VS6_0.writes (Elt F) VS6_0.junk (kernelRun6_A c i arg1 harg1 arg2 harg2 arg3 harg3 arg4 harg4 arg5 harg5 arg6 harg6 arg7 harg7 hc0 hc1 x0 x1 x2 x3).2.1)

theorem scover6_A_1 (y : S1x1.Idx) : ∃ pc ∈ (kernelRun6_A c i arg1 harg1 arg2 harg2 arg3 harg3 arg4 harg4 arg5 harg5 arg6 harg6 arg7 harg7 hc0 hc1 x0 x1 x2 x3).2.2.1, y ∈ pc.1.set :=
  View.cover_of_tiledL _ S1x1.size (by sl_kernel_rfl) y

def sout6_A_1 : Vec F S1x1 .f32 :=
  VS6_1.read (Elt F) (VS6_1.writes (Elt F) VS6_1.junk (kernelRun6_A c i arg1 harg1 arg2 harg2 arg3 harg3 arg4 harg4 arg5 harg5 arg6 harg6 arg7 harg7 hc0 hc1 x0 x1 x2 x3).2.2.1)

end

section
variable (hc0 : ¬cond6_0 i) (hc1 : ¬cond6_1 i) (x0 x1 x2 x3 : Vec F S5000x64 .f32) (xs0 xs1 : Vec F S1x1 .f32)

def out6_B_4 : Vec F S1x1 .f32 :=
  VO6_4.read (Elt F) (VO6_4.writes (Elt F) VO6_4.junk (kernelRun6_B c i arg1 harg1 arg2 harg2 arg3 harg3 arg4 harg4 arg5 harg5 arg6 harg6 arg7 harg7 hc0 hc1 x0 x1 x2 x3 xs0 xs1).1)

theorem scover6_B_0 (y : S1x1.Idx) : ∃ pc ∈ (kernelRun6_B c i arg1 harg1 arg2 harg2 arg3 harg3 arg4 harg4 arg5 harg5 arg6 harg6 arg7 harg7 hc0 hc1 x0 x1 x2 x3 xs0 xs1).2.1, y ∈ pc.1.set :=
  View.cover_of_tiledL _ S1x1.size (by sl_kernel_rfl) y

def sout6_B_0 : Vec F S1x1 .f32 :=
  VS6_0.read (Elt F) (VS6_0.writes (Elt F) VS6_0.junk (kernelRun6_B c i arg1 harg1 arg2 harg2 arg3 harg3 arg4 harg4 arg5 harg5 arg6 harg6 arg7 harg7 hc0 hc1 x0 x1 x2 x3 xs0 xs1).2.1)

theorem scover6_B_1 (y : S1x1.Idx) : ∃ pc ∈ (kernelRun6_B c i arg1 harg1 arg2 harg2 arg3 harg3 arg4 harg4 arg5 harg5 arg6 harg6 arg7 harg7 hc0 hc1 x0 x1 x2 x3 xs0 xs1).2.2.1, y ∈ pc.1.set :=
  View.cover_of_tiledL _ S1x1.size (by sl_kernel_rfl) y

def sout6_B_1 : Vec F S1x1 .f32 :=
  VS6_1.read (Elt F) (VS6_1.writes (Elt F) VS6_1.junk (kernelRun6_B c i arg1 harg1 arg2 harg2 arg3 harg3 arg4 harg4 arg5 harg5 arg6 harg6 arg7 harg7 hc0 hc1 x0 x1 x2 x3 xs0 xs1).2.2.1)

end

section
variable (hc0 : ¬cond6_0 i) (hc1 : cond6_1 i) (x0 x1 x2 x3 : Vec F S5000x64 .f32) (xs0 xs1 : Vec F S1x1 .f32)

theorem cover6_C_4 (y : S1x1.Idx) : ∃ pc ∈ (kernelRun6_C c i arg1 harg1 arg2 harg2 arg3 harg3 arg4 harg4 arg5 harg5 arg6 harg6 arg7 harg7 hc0 hc1 x0 x1 x2 x3 xs0 xs1).1, y ∈ pc.1.set :=
  View.cover_of_tiledL _ S1x1.size (by sl_kernel_rfl) y

def out6_C_4 : Vec F S1x1 .f32 :=
  VO6_4.read (Elt F) (VO6_4.writes (Elt F) VO6_4.junk (kernelRun6_C c i arg1 harg1 arg2 harg2 arg3 harg3 arg4 harg4 arg5 harg5 arg6 harg6 arg7 harg7 hc0 hc1 x0 x1 x2 x3 xs0 xs1).1)

theorem scover6_C_0 (y : S1x1.Idx) : ∃ pc ∈ (kernelRun6_C c i arg1 harg1 arg2 harg2 arg3 harg3 arg4 harg4 arg5 harg5 arg6 harg6 arg7 harg7 hc0 hc1 x0 x1 x2 x3 xs0 xs1).2.1, y ∈ pc.1.set :=
  View.cover_of_tiledL _ S1x1.size (by sl_kernel_rfl) y

def sout6_C_0 : Vec F S1x1 .f32 :=
  VS6_0.read (Elt F) (VS6_0.writes (Elt F) VS6_0.junk (kernelRun6_C c i arg1 harg1 arg2 harg2 arg3 harg3 arg4 harg4 arg5 harg5 arg6 harg6 arg7 harg7 hc0 hc1 x0 x1 x2 x3 xs0 xs1).2.1)

theorem scover6_C_1 (y : S1x1.Idx) : ∃ pc ∈ (kernelRun6_C c i arg1 harg1 arg2 harg2 arg3 harg3 arg4 harg4 arg5 harg5 arg6 harg6 arg7 harg7 hc0 hc1 x0 x1 x2 x3 xs0 xs1).2.2.1, y ∈ pc.1.set :=
  View.cover_of_tiledL _ S1x1.size (by sl_kernel_rfl) y

def sout6_C_1 : Vec F S1x1 .f32 :=
  VS6_1.read (Elt F) (VS6_1.writes (Elt F) VS6_1.junk (kernelRun6_C c i arg1 harg1 arg2 harg2 arg3 harg3 arg4 harg4 arg5 harg5 arg6 harg6 arg7 harg7 hc0 hc1 x0 x1 x2 x3 xs0 xs1).2.2.1)

end

end

/-- `f` at point `t`: the grid coordinate, the memrefs the body is called with there, and the four input blocks. -/
def at6 (c : Dev nD) {P Q : grid6.Coords → Prop} {β : Type}
    (f : (i : grid6.Coords) → (arg1 : Memref sig .tc .vmem S5000x64 .f32) → arg1.IsWhole → (arg2 : Memref sig .tc .vmem S5000x64 .f32) → arg2.IsWhole →
      (arg3 : Memref sig .tc .vmem S5000x64 .f32) → arg3.IsWhole → (arg4 : Memref sig .tc .vmem S5000x64 .f32) → arg4.IsWhole →
      (arg5 : Memref sig .tc .vmem S1x1 .f32) → arg5.IsWhole → (arg6 : Memref sig .tc .vmem S1x1 .f32) → arg6.IsWhole →
      (arg7 : Memref sig .tc .vmem S1x1 .f32) → arg7.IsWhole →
      P i → Q i → Vec F S5000x64 .f32 → Vec F S5000x64 .f32 → Vec F S5000x64 .f32 → Vec F S5000x64 .f32 → β)
    (t : Fin cfg6.N) (p : P (grid6.coords t)) (q : Q (grid6.coords t)) : β :=
  f (grid6.coords t) (ms6_0 t) (hs6_0 t) (ms6_1 t) (hs6_1 t) (ms6_2 t) (hs6_2 t) (ms6_3 t) (hs6_3 t) (ms6_4 t) (hs6_4 t)
    scM6_0 (Memref.isWhole_whole _) scM6_1 (Memref.isWhole_whole _) p q (iblk6 V c 0 t) (iblk6 V c 1 t) (iblk6 V c 2 t) (iblk6 V c 3 t)

/-- The first block's contents: nothing enters from before it. -/
def outA6 (c : Dev nD) (t : Fin cfg6.N) (h0 : t.val % 20 = 0) (h1 : ¬t.val % 20 = 19) :
    Vec F S1x1 .f32 × Vec F S1x1 .f32 × Vec F S1x1 .f32 :=
  have p := (hcond6_0 t).mpr h0
  have q := mt (hcond6_1 t).mp h1
  (at6 V c (out6_A_4 c) t p q, at6 V c (sout6_A_0 c) t p q, at6 V c (sout6_A_1 c) t p q)

/-- What the result and the two accumulators hold after block `n`: block `n` run from what block `n - 1` left. -/
def outsAt6 (c : Dev nD) : (n : ℕ) → n < cfg6.N → Vec F S1x1 .f32 × Vec F S1x1 .f32 × Vec F S1x1 .f32
  | 0, hn => outA6 V c ⟨0, hn⟩ rfl (by decide : ¬0 % 20 = 19)
  | n + 1, hn =>
    if h0 : (n + 1) % 20 = 0 then
      if h1 : (n + 1) % 20 = 19 then absurd (h0.symm.trans h1) (by decide) else outA6 V c ⟨n + 1, hn⟩ h0 h1
    else
      have p := mt (hcond6_0 ⟨n + 1, hn⟩).mp h0
      let s := outsAt6 c n (Nat.lt_of_succ_lt hn)
      if h1 : (n + 1) % 20 = 19 then
        have q := (hcond6_1 ⟨n + 1, hn⟩).mpr h1
        (at6 V c (out6_C_4 c) _ p q s.2.1 s.2.2, at6 V c (sout6_C_0 c) _ p q s.2.1 s.2.2, at6 V c (sout6_C_1 c) _ p q s.2.1 s.2.2)
      else
        have q := mt (hcond6_1 ⟨n + 1, hn⟩).mp h1
        (at6 V c (out6_B_4 c) _ p q s.2.1 s.2.2, at6 V c (sout6_B_0 c) _ p q s.2.1 s.2.2, at6 V c (sout6_B_1 c) _ p q s.2.1 s.2.2)

theorem outsAt6_A (c : Dev nD) (t : Fin cfg6.N) (h0 : t.val % 20 = 0) (h1 : ¬t.val % 20 = 19) :
    outsAt6 V c t.val t.isLt = (out6_A_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t), sout6_A_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t)) := by
  obtain ⟨n, hn⟩ := t
  cases n with
  | zero => exact rfl
  | succ n => exact (dif_pos h0).trans ((dif_neg h1).trans rfl)

theorem outsAt6_B (c : Dev nD) (t : Fin cfg6.N) (h0 : ¬t.val % 20 = 0) (h1 : ¬t.val % 20 = 19) :
    outsAt6 V c t.val t.isLt = (out6_B_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_B_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_B_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt6_C (c : Dev nD) (t : Fin cfg6.N) (h0 : ¬t.val % 20 = 0) (h1 : t.val % 20 = 19) :
    outsAt6 V c t.val t.isLt = (out6_C_4 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_C_0 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2, sout6_C_1 c (grid6.coords t) (ms6_0 t) (hs6_0 t) (ms6_1 t) (hs6_1 t) (ms6_2 t) (hs6_2 t) (ms6_3 t) (hs6_3 t) (ms6_4 t) (hs6_4 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-- The invariant with the two accumulators held as `A0`, `A1`; whatever else it owns is carried unchanged. -/
def Inv6 (c : Dev nD) (A0 A1 : sProp 𝕄) : sProp 𝕄 :=
  iprop(iprop(iprop(A0 ∗ A1) ∗ Pipeline.scopedRestBut spec6 c [cc6_scratch0, cc6_scratch1]) ∗ (∃ r, prngReg c r))

def PhiS6 (c : Dev nD) : (n : ℕ) → n ≤ cfg6.N → sProp 𝕄
  | 0, _ => Pipeline.ΦA spec6 c
  | n + 1, hn => Inv6 c (owns (c : Thread nD τ) scM6_0 fullShare (outsAt6 V c n hn).2.1) (owns (c : Thread nD τ) scM6_1 fullShare (outsAt6 V c n hn).2.2)

theorem PhiS6_zero (c : Dev nD) (n : ℕ) (h : n ≤ cfg6.N) (hz : n = 0) : PhiS6 V c n h = Pipeline.ΦA spec6 c := by
  subst hz; rfl

theorem PhiS6_pos (c : Dev nD) (n : ℕ) (h : n ≤ cfg6.N) (hz : n ≠ 0) :
    PhiS6 V c n h = Inv6 c (owns (c : Thread nD τ) scM6_0 fullShare (outsAt6 V c (n - 1) (by omega)).2.1) (owns (c : Thread nD τ) scM6_1 fullShare (outsAt6 V c (n - 1) (by omega)).2.2) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => (outsAt6 V c t.val t.isLt).1
  Φ t := PhiS6 V c t.val (Nat.le_of_lt_succ t.isLt)
  q _ := fullShare
  owed _ := 0

theorem PhiS6_castSucc (c : Dev nD) (t : Fin cfg6.N) :
    (dat6 V c).Φ t.castSucc = PhiS6 V c t.val (Nat.le_of_lt t.isLt) := by
  dsimp only [dat6]; simp only [Fin.coe_castSucc]

theorem after6_4 (c : Dev nD) (t : Fin cfg6.N) : (dat6 V c).after 4 t = (outsAt6 V c t.val t.isLt).1 := by dsimp only [dat6]

theorem before6_0 (c : Dev nD) (t : Fin cfg6.N) (d) : (dat6 V c).before 0 t d = iblk6 V c 0 t :=
  (Dat.before_in_eq_fetched (dat6 V c) 0 rfl (fun _ => rfl) (fun _ _ _ => rfl) (fun _ => rfl) t d).trans rfl
theorem before6_1 (c : Dev nD) (t : Fin cfg6.N) (d) : (dat6 V c).before 1 t d = iblk6 V c 1 t :=
  (Dat.before_in_eq_fetched (dat6 V c) 1 rfl (fun _ => rfl) (fun _ _ _ => rfl) (fun _ => rfl) t d).trans rfl
theorem before6_2 (c : Dev nD) (t : Fin cfg6.N) (d) : (dat6 V c).before 2 t d = iblk6 V c 2 t :=
  (Dat.before_in_eq_fetched (dat6 V c) 2 rfl (fun _ => rfl) (fun _ _ _ => rfl) (fun _ => rfl) t d).trans rfl
theorem before6_3 (c : Dev nD) (t : Fin cfg6.N) (d) : (dat6 V c).before 3 t d = iblk6 V c 3 t :=
  (Dat.before_in_eq_fetched (dat6 V c) 3 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

theorem idle6_4 : ∀ t : Fin cfg6.N, ¬cond6_1 (grid6.coords t) →
    cfg6.idle 4 (grid6.coords t) = true ∧ (cfg6.win 4).flush t = false := by decide +kernel

/-- A buffer whose stores cover it is owned at what they read back. -/
theorem owns_of_cover {c : Dev nD} {M : Memref sig .tc .vmem S1x1 .f32} (v : View sig .tc .vmem S1x1 .f32)
    {L : List (View.Piece (Elt F) S1x1 .f32)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

/-- A run that returns the inputs unchanged lifts to the invariant, the accumulators and the result coming back through `h0`, `h1`, `h4`. -/
theorem frame6 {c : Dev nD} {e : Prog (TpuEff nD τ sig (Elt F) Λ₀ .tc) PUnit} {D0 D1 D2 D3 D4 : Type} {I0 I1 I2 I3 S0 S1 T0 T1 A0 A1 L4 Ho : sProp 𝕄} {R4 P4 Q4 : D4 → sProp 𝕄}
    (run : ∀ d (K : PUnit → sProp 𝕄), iprop(I0 ∗ I1 ∗ I2 ∗ I3 ∗ P4 d ∗ S0 ∗ S1 ∗ (iprop(I0 ∗ I1 ∗ I2 ∗ I3 ∗ Q4 d ∗ T0 ∗ T1) -∗ K ⟨⟩)) ⊢ wp frame (wpE (defs₀ (F := F)) Variants.none c none) Set.univ e K)
    (p4 : ∀ d, R4 d ⊢ P4 d) (h0 : T0 ⊢ A0) (h1 : T1 ⊢ A1) (h4 : ∀ d, Q4 d ⊢ L4) :
    iprop(Inv6 c S0 S1 ∗ Ho ∗ (∃ _ : D0, I0) ∗ (∃ _ : D1, I1) ∗ (∃ _ : D2, I2) ∗ (∃ _ : D3, I3) ∗ (∃ d, R4 d))
      ⊢ wp frame (wpE (defs₀ (F := F)) Variants.none c none) Set.univ e (fun _ => iprop(Inv6 c A0 A1 ∗ Ho ∗ I0 ∗ I1 ∗ I2 ∗ I3 ∗ L4)) := by
  unfold Inv6
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply (run d4 _)
  isplitl [H0]; · iexact H0
  isplitl [H1]; · iexact H1
  isplitl [H2]; · iexact H2
  isplitl [H3]; · iexact H3
  isplitl [H4]; · iapply (p4 d4); iexact H4
  isplitl [HS0]; · iexact HS0
  isplitl [HS1]; · iexact HS1
  iintro ⟨H0, H1, H2, H3, H4, HS0, HS1⟩
  isplitl [HS0 HS1 Hrest Hg]
  · isplitl [HS0 HS1 Hrest]
    · isplitl [HS0 HS1]
      · isplitl [HS0]
        · iapply h0; iexact HS0
        iapply h1; iexact HS1
      iexact Hrest
    iexact Hg
  isplitl [Ho]; · iexact Ho
  isplitl [H0]; · iexact H0
  isplitl [H1]; · iexact H1
  isplitl [H2]; · iexact H2
  isplitl [H3]; · iexact H3
  iapply (h4 d4); iexact H4

/-- At any point the invariant entails the entry invariant: the accumulators' contents are forgotten. -/
theorem Phi_weak6 (c : Dev nD) (t : Fin (cfg6.N + 1)) : (dat6 V c).Φ t ⊢ Pipeline.ΦA spec6 c := by
  rw [show (dat6 V c).Φ t = PhiS6 V c t.val (Nat.le_of_lt_succ t.isLt) from rfl]
  by_cases ht : t.val = 0
  · rw [PhiS6_zero V c _ _ ht]
    try exact Idealize.SL.BI.Entails.refl _
  · rw [PhiS6_pos V c _ _ ht, PhiA6_eq]; unfold Inv6
    iintro ⟨⟨⟨HS0, HS1⟩, Hrest⟩, Hg⟩
    isplitl [HS0 HS1 Hrest]
    · isplitl [HS0 HS1]
      · isplitl [HS0]
        · iexists _; iexact HS0
        iexists _; iexact HS1
      iexact Hrest
    iexact Hg

/-- The block's position selects the case; the invariant lends the accumulators and takes them back at this block's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    show (dat6 V c).Φ t.succ = Inv6 c (owns (c : Thread nD τ) scM6_0 fullShare (outsAt6 V c t.val t.isLt).2.1) (owns (c : Thread nD τ) scM6_1 fullShare (outsAt6 V c t.val t.isLt).2.2) from rfl,
    show (dat6 V c).leavesExact 0 t = owns (c : Thread nD τ) (ms6_0 t) fullShare (iblk6 V c 0 t) from rfl,
    show (dat6 V c).leavesExact 1 t = owns (c : Thread nD τ) (ms6_1 t) fullShare (iblk6 V c 1 t) from rfl,
    show (dat6 V c).leavesExact 2 t = owns (c : Thread nD τ) (ms6_2 t) fullShare (iblk6 V c 2 t) from rfl,
    show (dat6 V c).leavesExact 3 t = owns (c : Thread nD τ) (ms6_3 t) fullShare (iblk6 V c 3 t) from rfl]
  by_cases h0 : t.val % 20 = 0
  · have p := (hcond6_0 t).mpr h0
    have h1 : ¬t.val % 20 = 19 := by omega
    have q := mt (hcond6_1 t).mp h1
    rw [Dat.leavesExact_idle (dat6 V c) 4 t (idle6_4 t q).1 (idle6_4 t q).2, outsAt6_A V c t h0 h1]
    unfold sout6_A_0 sout6_A_1; (try dsimp only)
    refine BIBase.Entails.trans (sep_mono_l (Phi_weak6 V c t.castSucc)) ?_
    rw [PhiA6_eq]
    exact frame6 (fun d K => (kernelRun6_A c _ _ _ _ _ _ _ _ _ _ _ _ _ _ _ p q _ _ _ _).2.2.2 ((dat6 V c).before 4 t d) Set.univ K)
      (fun _ => by iintro H; iexact H) (owns_of_cover _ (scover6_A_0 c _ _ _ _ _ _ _ _ _ _ _ _ _ _ _ _ _ _ _ _ _)) (owns_of_cover _ (scover6_A_1 c _ _ _ _ _ _ _ _ _ _ _ _ _ _ _ _ _ _ _ _ _))
      (fun d => by iintro H; iexists d; iexact H)
  · have p := mt (hcond6_0 t).mp h0
    have hz : t.val ≠ 0 := by omega
    rw [PhiS6_castSucc V c t, PhiS6_pos V c _ _ hz]
    by_cases h1 : t.val % 20 = 19
    · have q := (hcond6_1 t).mpr h1
      rw [show (dat6 V c).leavesExact 4 t = owns (c : Thread nD τ) (ms6_4 t) fullShare ((dat6 V c).after 4 t) from by
        unfold Dat.leavesExact; rw [liveAt6_4_C t p q], after6_4, outsAt6_C V c t h0 h1]
      unfold out6_C_4 sout6_C_0 sout6_C_1; (try dsimp only)
      exact frame6 (fun _ K => (kernelRun6_C c _ _ _ _ _ _ _ _ _ _ _ _ _ _ _ p q _ _ _ _ _ _).2.2.2 Set.univ K)
        (fun _ => by iintro H; iexists _; iexact H) (owns_of_cover _ (scover6_C_0 c _ _ _ _ _ _ _ _ _ _ _ _ _ _ _ _ _ _ _ _ _ _ _)) (owns_of_cover _ (scover6_C_1 c _ _ _ _ _ _ _ _ _ _ _ _ _ _ _ _ _ _ _ _ _ _ _))
        (fun _ => owns_of_cover _ (cover6_C_4 c _ _ _ _ _ _ _ _ _ _ _ _ _ _ _ _ _ _ _ _ _ _ _))
    · have q := mt (hcond6_1 t).mp h1
      rw [Dat.leavesExact_idle (dat6 V c) 4 t (idle6_4 t q).1 (idle6_4 t q).2, outsAt6_B V c t h0 h1]
      unfold sout6_B_0 sout6_B_1; (try dsimp only)
      exact frame6 (fun d K => (kernelRun6_B c _ _ _ _ _ _ _ _ _ _ _ _ _ _ _ p q _ _ _ _ _ _).2.2.2 ((dat6 V c).before 4 t d) Set.univ K)
        (fun _ => by iintro H; iexact H) (owns_of_cover _ (scover6_B_0 c _ _ _ _ _ _ _ _ _ _ _ _ _ _ _ _ _ _ _ _ _ _ _)) (owns_of_cover _ (scover6_B_1 c _ _ _ _ _ _ _ _ _ _ _ _ _ _ _ _ _ _ _ _ _ _ _))
        (fun d => by iintro H; iexists d; iexact H)

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c :=
  Phi_weak6 V c _

end Cert.Kernel.Fr

end
-- ==== Proof.K.Fold6.lean ====
import proofs.«108427_j91276644975069_1_alg».proof.Proof.K.Fold
import proofs.«108427_j91276644975069_1_alg».proof.Proof.K.R6

noncomputable section

namespace Cert.Kernel.Fr

open Cert.Kernel Cert.Kernel.Gen
open Idealize.ShloMosaic Idealize.ShloMosaic.TcCoe
open Idealize.ShloMosaic.Pipeline (withArrays arrRef)

variable {F : FTy → Type} [FloatOps F]
variable (m : (ℓ : Loc nD τ sig) → Buf (Elt F) ℓ) (ρ : Dev nD → PrngReg) (c : Dev nD)

def W12 : Valuation τ sig (Elt F) :=
  withArrays spec6 c (W11 m ρ c) fun w => (dat6 (V11 m ρ) c).arrAt w cfg6.N
theorem W12_arr (w : Fin cfg6.W) :
    W12 m ρ c (arrRef spec6 w) = (dat6 (V11 m ρ) c).arrAt w cfg6.N :=
  Pipeline.withArrays_arr _ launch6.win.arr_inj c _ _ w
theorem W12_of_ne (b : Ref sig .tc) (hb : ∀ w, arrRef spec6 w ≠ b) :
    W12 m ρ c b = W11 m ρ c b :=
  Pipeline.withArrays_of_ne _ c _ _ b hb
abbrev V12 : (c : Dev nD) → (b : Ref sig .tc) → Buf (Elt F) ((c : Thread nD τ).loc b) := fun c b => W12 m ρ c b
theorem hF6 (w : Fin cfg6.W) : (dat6 (V11 m ρ) c).arrAt w cfg6.N = V12 m ρ c (arrRef spec6 w) :=
  (W12_arr m ρ c w).symm
theorem hrest6 : ∀ b, b ∉ Finset.univ.image (arrRef spec6) → V12 m ρ c b = V11 m ρ c b :=
  fun b hb => W12_of_ne m ρ c b (ne_of_not_mem hb)

abbrev W13 : Dev nD → Valuation τ sig (Elt F) := fun c => StableHlo.after hostOps7 (W12 m ρ c)
theorem W13_of (r : Ref sig .tc) (h : r ∉ hostOps7_W) :
    W13 m ρ c r = W12 m ρ c r :=
  StableHlo.after_of_writes_sub hostOps7 _ hostOps7_writes h

-- Neither the last region nor the last host stretch touches a buffer that is no array of the one and not written by the other.
theorem W13_W11 {b : Ref sig .tc} (h : b ∉ hostOps7_W ∧ ∀ w, arrRef spec6 w ≠ b) :
    W13 m ρ c b = W11 m ρ c b :=
  (W13_of m ρ c b h.1).trans (W12_of_ne m ρ c b h.2)

theorem W13_kept {b : Ref sig .tc} (h : (b ∉ hostOps7_W ∧ ∀ w, arrRef spec6 w ≠ b) ∧ Kept b) :
    W13 m ρ c b = m ((c : Thread nD τ).loc b) :=
  (W13_W11 m ρ c h.1).trans (W11_kept m ρ c h.2)

theorem W13_main_arg0 : W13 m ρ c main_arg0 = m ((c : Thread nD τ).loc main_arg0) := W13_kept m ρ c (by decide)
theorem W13_main_arg1 : W13 m ρ c main_arg1 = m ((c : Thread nD τ).loc main_arg1) := W13_kept m ρ c (by decide)
theorem W13_main_arg2 : W13 m ρ c main_arg2 = m ((c : Thread nD τ).loc main_arg2) := W13_kept m ρ c (by decide)
theorem W13_main_arg3 : W13 m ρ c main_arg3 = m ((c : Thread nD τ).loc main_arg3) := W13_kept m ρ c (by decide)
theorem W13_main_arg4 : W13 m ρ c main_arg4 = m ((c : Thread nD τ).loc main_arg4) := W13_kept m ρ c (by decide)
theorem W13_main_arg5 : W13 m ρ c main_arg5 = m ((c : Thread nD τ).loc main_arg5) := W13_kept m ρ c (by decide)
theorem W13_main_arg6 : W13 m ρ c main_arg6 = m ((c : Thread nD τ).loc main_arg6) := W13_kept m ρ c (by decide)
theorem W13_main_arg7 : W13 m ρ c main_arg7 = m ((c : Thread nD τ).loc main_arg7) := W13_kept m ρ c (by decide)
theorem W13_main_arg8 : W13 m ρ c main_arg8 = m ((c : Thread nD τ).loc main_arg8) := W13_kept m ρ c (by decide)
theorem W13_main_arg9 : W13 m ρ c main_arg9 = m ((c : Thread nD τ).loc main_arg9) := W13_kept m ρ c (by decide)

-- Each array result is the output array of its region, which no later item writes.
theorem W13_main_v60 : W13 m ρ c main_v60 = (dat3 (V6 m ρ) c).arrAt 4 cfg3.N :=
  (W13_W11 m ρ c (by decide)).trans <| (W11_of m ρ c _ (by decide)).trans <| (W10_of_ne m ρ c _ (by decide)).trans <|
    (W9_of m ρ c _ (by decide)).trans <| (W8_of_ne m ρ c _ (by decide)).trans <| W7_arr m ρ c 4
theorem W13_main_v77 : W13 m ρ c main_v77 = (dat5 (V9 m ρ) c).arrAt 4 cfg5.N :=
  (W13_W11 m ρ c (by decide)).trans <| (W11_of m ρ c _ (by decide)).trans <| W10_arr m ρ c 4

end Cert.Kernel.Fr

end
-- ==== Proof.K.Regs.lean ====
import proofs.«108427_j91276644975069_1_alg».proof.Proof.K.Fold6

noncomputable section

namespace Cert.Kernel.Fr

open Cert.Kernel Cert.Kernel.Gen
open Idealize.ShloMosaic Idealize.ShloMosaic.TcCoe
open Idealize.SL Idealize.SL.RA Idealize.SL.BI
open Idealize.SL.BI.BIBase Idealize.SL.ProofMode
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem pdats_plain (p : Fin 7) (c : Dev nD) : (∀ w, (pdats m ρ p c).q w = fullShare) ∧ (∀ t, (pdats m ρ p c).owed t = 0)
    ∧ ∀ x, x ∈ (pdats m ρ p c).recorded 0 := by
  fin_cases p <;> exact ⟨fun _ => rfl, fun _ => rfl, fun _ => trivial⟩

-- one region as a segment: entered with the buffers at `W`, left with them at `W'`, which is `W` updated at the region's arrays
def regOf (p : Fin 7) (lf : Pipeline.LaunchFacts (nD := nD) (τ := τ) cfgs p) (W W' : Dev nD → Valuation τ sig (Elt F))
    (hb : ∀ c, BodyObligation (pdats m ρ p c) (defs₀ (F := F)) 𝒱₀ () Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c (b : Ref sig .tc), b ∉ Finset.univ.image (Pipeline.arrRef (cfgs p).spec) → W' c b = W c b)
    (hin : ∀ c, Pipeline.ΦA (cfgs p).spec c ⊢ (pdats m ρ p c).Φ 0 := by exact fun _ => .rfl)
    (hout : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m ρ p c).2.1
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    have hsplit := Pipeline.arrays_of_unscopedBufs (p := p) (pcfgs (F := F)) adm (pdats m ρ) lf.win lf.arr_whole c
      ((pdats m ρ p c).share_full (pdats_plain m ρ p c).1) (fun b => W c b) (hA c)
    rw [Pipeline.unscopedBufs_held] at hsplit
    unfold Pipeline.prefHeld Pipeline.Dat.owesAt Pipeline.owesWithin
    rw [(pdats_plain m ρ p c).2.1, show (Finset.univ : Finset (Fin 0)) = ∅ from rfl, BI.bigSep_empty]
    iintro ⟨⟨Hub, Hp, %S, HO⟩, -⟩
    ihave H := hsplit $$ Hub
    icases H with ⟨Ha, Hrest⟩
    imodintro
    iframe
    isplitr; · iempintro
    iexists S; iframe
    ipureintro; exact fun _ _ => Or.inl ((pdats_plain m ρ p c).2.2 _)
  hin c := .trans (by unfold Pipeline.ΦA; iintro ⟨Hp, -, Hr⟩; iframe) (hin c)
  hout c := (hout c).trans (by rw [Pipeline.ownSems0_none]; unfold Pipeline.ΦA; iintro ⟨Hr, Hp⟩; iframe; iempintro)
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (pdats_plain m ρ p c).1)
      (fun b => W c b) (fun b => W' c b) ((pdats m ρ p c).arrAt · (cfgs p).N) (hF c) (hrest c)
    rw [Pipeline.unscopedBufs_held] at hjoin
    unfold Pipeline.Dat.owesAt Pipeline.owesWithin
    rw [(pdats_plain m ρ p c).2.1]
    iintro ⟨Ha, ⟨%S, -, HO⟩, HY, Hrest⟩
    imodintro
    isplitl [Ha Hrest]
    · iapply hjoin; iframe
    isplitl [HY]; · iexact HY
    iexists S; iexact HO

def reg0 : Pipeline.RegionSeg (pcfgs (F := F)) adm (pdats m ρ) () defs₀ 𝒱₀ L lv 0 :=
  regOf m ρ 0 launch0 (W1 m ρ) (W2 m ρ) (body_obligation0 (V1 m ρ)) (fun _ _ => rfl) (hF0 m ρ) (hrest0 m ρ)
def reg1 : Pipeline.RegionSeg (pcfgs (F := F)) adm (pdats m ρ) () defs₀ 𝒱₀ L lv 1 :=
  regOf m ρ 1 launch1 (W3 m ρ) (W4 m ρ) (body_obligation1 (V3 m ρ)) (fun _ _ => rfl) (hF1 m ρ) (hrest1 m ρ)
def reg2 : Pipeline.RegionSeg (pcfgs (F := F)) adm (pdats m ρ) () defs₀ 𝒱₀ L lv 2 :=
  regOf m ρ 2 launch2 (W4 m ρ) (W5 m ρ) (body_obligation2 (V4 m ρ)) (fun _ _ => rfl) (hF2 m ρ) (hrest2 m ρ)
def reg3 : Pipeline.RegionSeg (pcfgs (F := F)) adm (pdats m ρ) () defs₀ 𝒱₀ L lv 3 :=
  regOf m ρ 3 launch3 (W6 m ρ) (W7 m ρ) (body_obligation3 (V6 m ρ)) (fun _ _ => rfl) (hF3 m ρ) (hrest3 m ρ)
def reg4 : Pipeline.RegionSeg (pcfgs (F := F)) adm (pdats m ρ) () defs₀ 𝒱₀ L lv 4 :=
  regOf m ρ 4 launch4 (W7 m ρ) (W8 m ρ) (body_obligation4 (V7 m ρ)) (fun _ _ => rfl) (hF4 m ρ) (hrest4 m ρ)
def reg5 : Pipeline.RegionSeg (pcfgs (F := F)) adm (pdats m ρ) () defs₀ 𝒱₀ L lv 5 :=
  regOf m ρ 5 launch5 (W9 m ρ) (W10 m ρ) (body_obligation5 (V9 m ρ)) (fun _ _ => rfl) (hF5 m ρ) (hrest5 m ρ)
def reg6 : Pipeline.RegionSeg (pcfgs (F := F)) adm (pdats m ρ) () defs₀ 𝒱₀ L lv 6 :=
  regOf m ρ 6 launch6 (W11 m ρ) (W12 m ρ) (body_obligation6 (V11 m ρ)) (fun _ _ => rfl) (hF6 m ρ) (hrest6 m ρ) (hin6 (V11 m ρ)) (hout6 (V11 m ρ))

end Cert.Kernel.Fr

end
-- ==== Proof.K.Run.lean ====
import proofs.«108427_j91276644975069_1_alg».proof.Proof.K.Regs

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's 13 items in order: a host segment per stretch, from the contents at its boundary, and a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)) ]

set_option backward.isDefEq.respectTransparency.types false in
/-- @main terminates from `m`, and every final memory holds each unscoped buffer at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [← Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h => h)

-- The post of `run_all` implies this one: every argument is an unscoped buffer, and `W13` holds it as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).monotone (fun r h c =>
    ⟨(h c _ (mem_uc _ (by decide))).trans (W13_main_arg0 m ρ c), (h c _ (mem_uc _ (by decide))).trans (W13_main_arg1 m ρ c),
     (h c _ (mem_uc _ (by decide))).trans (W13_main_arg2 m ρ c), (h c _ (mem_uc _ (by decide))).trans (W13_main_arg3 m ρ c),
     (h c _ (mem_uc _ (by decide))).trans (W13_main_arg4 m ρ c), (h c _ (mem_uc _ (by decide))).trans (W13_main_arg5 m ρ c),
     (h c _ (mem_uc _ (by decide))).trans (W13_main_arg6 m ρ c), (h c _ (mem_uc _ (by decide))).trans (W13_main_arg7 m ρ c),
     (h c _ (mem_uc _ (by decide))).trans (W13_main_arg8 m ρ c), (h c _ (mem_uc _ (by decide))).trans (W13_main_arg9 m ρ c)⟩) (run_all m ρ)

end Cert.Kernel.Fr

end
-- ==== Proof.KI.PayMM.lean ====
import proofs.«108427_j91276644975069_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

variable {M K N : ℕ}

namespace MM

-- An [M,K] by [K,N] product into a zero accumulator is, entry by entry, the sum over the shared axis.
theorem mm_apply (a : FVec Ideal ⟨2, ![M, K]⟩ .bf16) (b : FVec Ideal ⟨2, ![K, N]⟩ .bf16) (p : Fin M) (q : Fin N) :
    matmul (F := Ideal) (DotDims.plain M K N) none a b (constant (F := Ideal) ⟨2, ![M, N]⟩ .f32 0x00000000#32) (ix2 p q)
      = ∑ k : Fin K, a (ix2 p k) * b (ix2 k q) := by
  refine (Ideal.matmul_constant_zero_apply _ none a b _).trans ?_
  rw [← Equiv.sum_comp (contrEquiv1 (DotDims.plain M K N) K rfl rfl).symm]
  refine Finset.sum_congr rfl fun k _ => ?_
  have hk := contrEquiv1_symm_val (DotDims.plain M K N) K rfl rfl k
  exact congrArg₂ (fun x y => a x * b y) (Shape.idx_ext₂ rfl hk) (Shape.idx_ext₂ hk rfl)

-- The product of an [M,K] array with a [K,N] array, entry by entry.
abbrev mmG (x : (⟨2, ![M, K]⟩ : Shape).Idx → EReal) (w : (⟨2, ![K, N]⟩ : Shape).Idx → EReal) :
    (⟨2, ![M, N]⟩ : Shape).Idx → EReal := fun i => ∑ k : Fin K, x (ix2 (i 0) k) * w (ix2 k (i 1))

-- An entry's sum may read the operands at any indices that have the right coordinates.
theorem mmG_eq (x : (⟨2, ![M, K]⟩ : Shape).Idx → EReal) (w : (⟨2, ![K, N]⟩ : Shape).Idx → EReal) (i : (⟨2, ![M, N]⟩ : Shape).Idx)
    (L : Fin K → (⟨2, ![M, K]⟩ : Shape).Idx) (R : Fin K → (⟨2, ![K, N]⟩ : Shape).Idx)
    (hL0 : ∀ k, (L k 0).val = (i 0).val) (hL1 : ∀ k, (L k 1).val = k.val)
    (hR0 : ∀ k, (R k 0).val = k.val) (hR1 : ∀ k, (R k 1).val = (i 1).val) :
    mmG x w i = ∑ k : Fin K, x (L k) * w (R k) :=
  Finset.sum_congr rfl fun k _ => congrArg₂ (fun a b => x a * w b)
    (Shape.idx_ext₂ (hL0 k).symm (hL1 k).symm) (Shape.idx_ext₂ (hR0 k).symm (hR1 k).symm)

-- An index map that follows row block t and stays at lane block 0.
abbrev rowIdx (ix : Fin 2 → ℕ) (t : ℕ) : Prop := ix 0 = t ∧ ix 1 = 0

theorem zeroOff : (![0, 0] : Fin 2 → ℕ) = fun _ => 0 := funext fun a => by fin_cases a <;> rfl

-- Row r lies in the block of B rows numbered r / B, and every lane in the one block of lanes.
theorem row_block {n f B : ℕ} (hB : 0 < B) (i : (⟨2, ![n, f]⟩ : Shape).Idx) (ix : Fin 2 → ℕ)
    (h0 : ix 0 = (i 0).val / B) (h1 : ix 1 = 0) (a : Fin 2) :
    ix a * ![B, f] a ≤ (i a).val ∧ (i a).val < ix a * ![B, f] a + ![B, f] a :=
  match a with
  | ⟨0, _⟩ => by
    show ix 0 * B ≤ (i 0).val ∧ (i 0).val < ix 0 * B + B
    rw [h0]; exact ⟨Nat.div_mul_le_self _ _, Nat.lt_div_mul_add hB⟩
  | ⟨1, _⟩ => by
    show ix 1 * f ≤ (i 1).val ∧ (i 1).val < ix 1 * f + f
    have := idx2_lt1 i; rw [h1]; omega

end MM

open MM

theorem pay0_apply (v0 : Vec Ideal S5000x64 .f32) (v2 : Vec Ideal S64x128 .f32) (p : Fin 5000) (q : Fin 128) :
    k0_pay1 (F := Ideal) v0 v2 (ix2 p q) = ∑ k : Fin 64, v0 (ix2 p k) * v2 (ix2 k q) := by
  unfold k0_pay1
  exact mm_apply (truncf .bf16 v0 bitsLt_bf16_f32) (truncf .bf16 v2 bitsLt_bf16_f32) p q

theorem pay2_apply (v0 : Vec Ideal S5000x128 .f32) (v3 : Vec Ideal S128x64 .f32) (p : Fin 5000) (q : Fin 64) :
    k2_pay1 (F := Ideal) v0 v3 (ix2 p q) = ∑ k : Fin 128, v0 (ix2 p k) * v3 (ix2 k q) := by
  unfold k2_pay1
  rw [shapeCast_self]
  exact mm_apply (truncf .bf16 v0 bitsLt_bf16_f32) (truncf .bf16 v3 bitsLt_bf16_f32) p q

theorem pay4_apply (v0 : Vec Ideal S5000x128 .f32) (v3 : Vec Ideal S128x64 .f32) (p : Fin 5000) (q : Fin 64) :
    k4_pay1 (F := Ideal) v0 v3 (ix2 p q) = ∑ k : Fin 128, v0 (ix2 p k) * v3 (ix2 k q) :=
  pay2_apply v0 v3 p q

end Cert.KernelIdeal.Val

end
-- ==== Proof.KI.Val2.lean ====
import proofs.«108427_j91276644975069_1_alg».proof.Proof.KI.R2
import proofs.«108427_j91276644975069_1_alg».proof.Proof.KI.PayMM
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open MM

abbrev G2 : (S100000x128.Idx → EReal) → (S128x64.Idx → EReal) → S100000x64.Idx → EReal := mmG

theorem G2_eq (x : S100000x128.Idx → EReal) (w : S128x64.Idx → EReal) (i : S100000x64.Idx)
    (L : Fin 128 → S100000x128.Idx) (R : Fin 128 → S128x64.Idx)
    (hL0 : ∀ k, (L k 0).val = (i 0).val) (hL1 : ∀ k, (L k 1).val = k.val)
    (hR0 : ∀ k, (R k 0).val = k.val) (hR1 : ∀ k, (R k 1).val = (i 1).val) :
    G2 x w i = ∑ k : Fin 128, x (L k) * w (R k) :=
  mmG_eq x w i L R hL0 hL1 hR0 hR1

variable (V : (c : Dev nD) → (b : Ref sig .tc) → Buf (Elt Ideal) ((c : Thread nD τ).loc b))

theorem idx_facts2 : ∀ t : Fin cfg2.N, rowIdx (win2_0.index t) t ∧ rowIdx (win2_1.index t) 0 ∧ rowIdx (win2_2.index t) t :=
  (by decide +kernel : ∀ t : Fin grid2.N, _)

-- Point t multiplies rows 5000 t … 5000 t + 4999 of the left array by the whole right array, so it writes block t of the product.
theorem flushed2_eq (c : Dev nD) (t : Fin cfg2.N) :
    (dat2 V c).flushed 2 t = ((cfg2.win 2).blk t).view.read (Elt Ideal) (G2 (V c main_v43) (V c main_arg4)) := by
  show (cfg2.win 2).cut (grid2.coords t) ((dat2 V c).after 2 t) = _
  rw [after2_2]
  unfold out2_2
  rw [View.canon_unit_zero zeroOff]
  simp only [View.ld_unit_zero (S := S5000x128) zeroOff, View.ld_unit_zero (S := S128x64) zeroOff]
  obtain ⟨⟨l0, l1⟩, ⟨r0, r1⟩, o0, o1⟩ := idx_facts2 t
  funext j
  obtain ⟨p, q, rfl⟩ : ∃ (p : Fin 5000) (q : Fin 64), j = ix2 p q := ⟨j 0, j 1, eq_ix2 j⟩
  refine (pay2_apply (iblk2 V c 0 t) (iblk2 V c 1 t) p q).trans (G2_eq (V c main_v43) (V c main_arg4) (((cfg2.win 2).blk t).view.emb (ix2 p q))
    (fun k => ((cfg2.win 0).blk t).view.emb (ix2 p k)) (fun k => ((cfg2.win 1).blk t).view.emb (ix2 k q))
    (fun k => ?_) (fun k => ?_) (fun k => ?_) (fun k => ?_)).symm
  · show win2_0.index t (0 : Fin 2) * 5000 + 1 * p.val = win2_2.index t (0 : Fin 2) * 5000 + 1 * p.val; omega
  · show win2_0.index t (1 : Fin 2) * 128 + 1 * k.val = k.val; omega
  · show win2_1.index t (0 : Fin 2) * 128 + 1 * k.val = k.val; omega
  · show win2_1.index t (1 : Fin 2) * 64 + 1 * q.val = win2_2.index t (1 : Fin 2) * 64 + 1 * q.val; omega

-- Row r lies in the block of point r / 5000: the twenty blocks of 5000 rows tile the 100000 rows.
theorem cover2 (i : S100000x64.Idx) : ∃ t : Fin cfg2.N, (cfg2.win 2).flush t = true ∧ i ∈ ((cfg2.win 2).blk t).view.set := by
  have hi0 : (i 0).val < 100000 := (i 0).isLt
  have hN : cfg2.N = 20 := N_2
  let t : Fin cfg2.N := ⟨(i 0).val / 5000, by rw [hN]; omega⟩
  obtain ⟨-, -, e0, e1⟩ := idx_facts2 t
  refine ⟨t, flush2_2 t, ?_⟩
  show i ∈ ((View.whole main_v44).slice (win2_2.rect t)).set
  rw [View.set_slice_whole, Rect.mem_set_unit]
  exact row_block (B := 5000) (by decide) i _ e0 e1

theorem arr2 (c : Dev nD) : (dat2 (F := Ideal) V c).arrAt 2 cfg2.N = G2 (V c main_v43) (V c main_arg4) :=
  (dat2 V c).arrAt_eq_of_cover 2 _ (fun t _ => flushed2_eq V c t) cover2

end Cert.KernelIdeal.Val

end
-- ==== Proof.KI.PayComb.lean ====
import proofs.«108427_j91276644975069_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen
open Idealize.ShloMosaic Idealize.ShloMosaic.ValueIdx

variable {n f : ℕ}

namespace Comb

-- A column broadcast along the lanes reads, at (p, c), the column's entry of row p.
theorem broadcastTo_a1_ab_apply {α : Type} (v : (⟨2, ![n, 1]⟩ : Shape).Idx → α)
    (h : (⟨2, ![n, 1]⟩ : Shape).Broadcasts ⟨2, ![n, f]⟩) (p : Fin n) (c : Fin f) :
    broadcastTo ⟨2, ![n, f]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

-- x + y * z + w, associated to the left.
abbrev fma3 (x y z w : EReal) : EReal :=
  FloatOps.addf (F := Ideal) (φ := .f32) (FloatOps.addf (F := Ideal) (φ := .f32) x (FloatOps.mulf (F := Ideal) (φ := .f32) y z)) w

abbrev relu0 (x : EReal) : EReal := FloatOps.maximumf (F := Ideal) (φ := .f32) x (Ideal.ofBits .f32 0x00000000#32)

abbrev cap10 (x : EReal) : EReal := FloatOps.minimumf (F := Ideal) (φ := .f32) x (Ideal.ofBits .f32 0x41200000#32)

-- The sum of blocks read at (p, q): the scale is a column, the bias a row, and a cast of a shape to itself changes nothing.
theorem fma3_apply (v0 v2 : FVec Ideal ⟨2, ![n, f]⟩ .f32) (v4 : FVec Ideal ⟨2, ![n, 1]⟩ .f32) (v9 : FVec Ideal ⟨2, ![1, f]⟩ .f32)
    (h0 h2 : (⟨2, ![n, f]⟩ : Shape).ShapeCasts ⟨2, ![n, f]⟩) (h4 : (⟨2, ![n, 1]⟩ : Shape).ShapeCasts ⟨2, ![n, 1]⟩)
    (h9 : (⟨2, ![1, f]⟩ : Shape).ShapeCasts ⟨2, ![1, f]⟩) (hc : (⟨2, ![n, 1]⟩ : Shape).Broadcasts ⟨2, ![n, f]⟩)
    (hr : (⟨2, ![1, f]⟩ : Shape).Broadcasts ⟨2, ![n, f]⟩) (p : Fin n) (q : Fin f) :
    addf (addf (shapeCast _ v0 h0) (mulf (shapeCast _ v2 h2) (broadcastTo _ (shapeCast _ v4 h4) hc))) (broadcastTo _ (shapeCast _ v9 h9) hr) (ix2 p q)
      = fma3 (v0 (ix2 p q)) (v2 (ix2 p q)) (v4 (ix2 p (0 : Fin 1))) (v9 (ix2 (0 : Fin 1) q)) := by
  simp only [shapeCast_self]
  show fma3 _ _ (broadcastTo _ v4 hc (ix2 p q)) (broadcastTo _ v9 hr (ix2 p q)) = _
  rw [broadcastTo_a1_ab_apply, broadcastTo_1b_ab_apply]

-- The aggregate plus the feature times its row's scale plus its lane's bias, then g.
abbrev comb (g : EReal → EReal) (agg h : (⟨2, ![n, f]⟩ : Shape).Idx → EReal) (sc : (⟨2, ![n, 1]⟩ : Shape).Idx → EReal)
    (b : (⟨2, ![1, f]⟩ : Shape).Idx → EReal) : (⟨2, ![n, f]⟩ : Shape).Idx → EReal :=
  fun i => g (fma3 (agg i) (h i) (sc (ix2 (i 0) (0 : Fin 1))) (b (ix2 (0 : Fin 1) (i 1))))

-- A column index is fixed by its row and a row index by its lane, so the four reads may be made at any indices with those coordinates.
theorem comb_eq (g : EReal → EReal) (agg h : (⟨2, ![n, f]⟩ : Shape).Idx → EReal) (sc : (⟨2, ![n, 1]⟩ : Shape).Idx → EReal)
    (b : (⟨2, ![1, f]⟩ : Shape).Idx → EReal) (i k0 k1 : (⟨2, ![n, f]⟩ : Shape).Idx) (k2 : (⟨2, ![n, 1]⟩ : Shape).Idx)
    (k3 : (⟨2, ![1, f]⟩ : Shape).Idx) (h0 : k0 = i) (h1 : k1 = i) (h2 : (k2 0).val = (i 0).val) (h3 : (k3 1).val = (i 1).val) :
    comb g agg h sc b i = g (fma3 (agg k0) (h k1) (sc k2) (b k3)) := by
  rw [h0, h1]
  obtain rfl : k2 = ix2 (i 0) (0 : Fin 1) := Shape.idx_ext₂ h2 (Nat.lt_one_iff.mp (k2 1).isLt)
  obtain rfl : k3 = ix2 (0 : Fin 1) (i 1) := Shape.idx_ext₂ (Nat.lt_one_iff.mp (k3 0).isLt) h3
  rfl

-- An index map that follows row block t and stays at lane block 0.
abbrev rowIdx (ix : Fin 2 → ℕ) (t : ℕ) : Prop := ix 0 = t ∧ ix 1 = 0

theorem zeroOff : (![0, 0] : Fin 2 → ℕ) = fun _ => 0 := funext fun a => by fin_cases a <;> rfl

-- Row r lies in the block of B rows numbered r / B, and every lane in the one block of lanes.
theorem row_block {n f B : ℕ} (hB : 0 < B) (i : (⟨2, ![n, f]⟩ : Shape).Idx) (ix : Fin 2 → ℕ)
    (h0 : ix 0 = (i 0).val / B) (h1 : ix 1 = 0) (a : Fin 2) :
    ix a * ![B, f] a ≤ (i a).val ∧ (i a).val < ix a * ![B, f] a + ![B, f] a :=
  match a with
  | ⟨0, _⟩ => by
    show ix 0 * B ≤ (i 0).val ∧ (i 0).val < ix 0 * B + B
    rw [h0]; exact ⟨Nat.div_mul_le_self _ _, Nat.lt_div_mul_add hB⟩
  | ⟨1, _⟩ => by
    show ix 1 * f ≤ (i 1).val ∧ (i 1).val < ix 1 * f + f
    have := idx2_lt1 i; rw [h1]; omega

end Comb

open Comb

theorem pay1_apply (v0 v2 : Vec Ideal S5000x128 .f32) (v4 : Vec Ideal S5000x1 .f32) (v9 : Vec Ideal S1x128 .f32)
    (p : Fin 5000) (q : Fin 128) :
    k1_pay1 (F := Ideal) v0 v2 v4 v9 (ix2 p q) = relu0 (fma3 (v0 (ix2 p q)) (v2 (ix2 p q)) (v4 (ix2 p (0 : Fin 1))) (v9 (ix2 (0 : Fin 1) q))) :=
  congrArg relu0 (fma3_apply v0 v2 v4 v9 _ _ _ _ _ _ p q)

theorem pay3_apply (v0 v2 : Vec Ideal S5000x64 .f32) (v4 : Vec Ideal S5000x1 .f32) (v9 : Vec Ideal S1x64 .f32)
    (p : Fin 5000) (q : Fin 64) :
    k3_pay1 (F := Ideal) v0 v2 v4 v9 (ix2 p q) = fma3 (v0 (ix2 p q)) (v2 (ix2 p q)) (v4 (ix2 p (0 : Fin 1))) (v9 (ix2 (0 : Fin 1) q)) :=
  fma3_apply v0 v2 v4 v9 _ _ _ _ _ _ p q

theorem pay5_apply (v0 v2 : Vec Ideal S5000x64 .f32) (v4 : Vec Ideal S5000x1 .f32) (v9 : Vec Ideal S1x64 .f32)
    (p : Fin 5000) (q : Fin 64) :
    k5_pay1 (F := Ideal) v0 v2 v4 v9 (ix2 p q) = cap10 (fma3 (v0 (ix2 p q)) (v2 (ix2 p q)) (v4 (ix2 p (0 : Fin 1))) (v9 (ix2 (0 : Fin 1) q))) :=
  congrArg cap10 (fma3_apply v0 v2 v4 v9 _ _ _ _ _ _ p q)

end Cert.KernelIdeal.Val

end
-- ==== Proof.KI.Val3.lean ====
import proofs.«108427_j91276644975069_1_alg».proof.Proof.KI.R3
import proofs.«108427_j91276644975069_1_alg».proof.Proof.KI.PayComb
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open Comb

abbrev G3 : (S100000x64.Idx → EReal) → (S100000x64.Idx → EReal) → (S100000x1.Idx → EReal) → (S1x64.Idx → EReal) → S100000x64.Idx → EReal :=
  comb id

theorem G3_eq (agg h : S100000x64.Idx → EReal) (sc : S100000x1.Idx → EReal) (b : S1x64.Idx → EReal) (i : S100000x64.Idx)
    (k2 : S100000x1.Idx) (k3 : S1x64.Idx) (h2 : (k2 0).val = (i 0).val) (h3 : (k3 1).val = (i 1).val) :
    G3 agg h sc b i = FloatOps.addf (F := Ideal) (φ := .f32) (FloatOps.addf (F := Ideal) (φ := .f32) (agg i) (FloatOps.mulf (F := Ideal) (φ := .f32) (h i) (sc k2))) (b k3) :=
  comb_eq id agg h sc b i i i k2 k3 rfl rfl h2 h3

theorem idx3 : ∀ t : Fin cfg3.N, rowIdx (win3_0.index t) t ∧ rowIdx (win3_1.index t) t ∧ rowIdx (win3_2.index t) t
    ∧ rowIdx (win3_3.index t) 0 ∧ rowIdx (win3_4.index t) t :=
  (by decide +kernel : ∀ t : Fin grid3.N, _)

variable (V : (c : Dev nD) → (b : Ref sig .tc) → Buf (Elt Ideal) ((c : Thread nD τ).loc b))

-- At point t the aggregate and the features are read at the output block's own indices, the scale at its rows and the bias at its lanes, so point t writes block t.
theorem flushed3_eq (c : Dev nD) (t : Fin cfg3.N) :
    (dat3 (F := Ideal) V c).flushed 4 t
      = ((cfg3.win 4).blk t).view.read (Elt Ideal) (G3 (V c main_v57) (V c main_v44) (V c main_v59) (V c main_v58)) := by
  show (cfg3.win 4).cut (grid3.coords t) ((dat3 V c).after 4 t) = _
  rw [after3_4]
  unfold out3_4
  rw [View.canon_unit_zero zeroOff]
  simp only [View.ld_unit_zero (S := S5000x64) zeroOff, View.ld_unit_zero (S := S5000x1) zeroOff, View.ld_unit_zero (S := S1x64) zeroOff]
  obtain ⟨⟨e00, e01⟩, ⟨e10, e11⟩, ⟨e20, -⟩, ⟨-, e31⟩, e40, e41⟩ := idx3 t
  funext j
  obtain ⟨p, q, rfl⟩ : ∃ (p : Fin 5000) (q : Fin 64), j = ix2 p q := ⟨j 0, j 1, eq_ix2 j⟩
  refine (pay3_apply (iblk3 V c 0 t) (iblk3 V c 1 t) (iblk3 V c 2 t) (iblk3 V c 3 t) p q).trans
    (comb_eq (n := 100000) (f := 64) id (V c main_v57) (V c main_v44) (V c main_v59) (V c main_v58) (((cfg3.win 4).blk t).view.emb (ix2 p q))
      (((cfg3.win 0).blk t).view.emb (ix2 p q)) (((cfg3.win 1).blk t).view.emb (ix2 p q))
      (((cfg3.win 2).blk t).view.emb (ix2 p (0 : Fin 1))) (((cfg3.win 3).blk t).view.emb (ix2 (0 : Fin 1) q))
      (Shape.idx_ext₂ ?_ ?_) (Shape.idx_ext₂ ?_ ?_) ?_ ?_).symm
  · show win3_0.index t (0 : Fin 2) * 5000 + 1 * p.val = win3_4.index t (0 : Fin 2) * 5000 + 1 * p.val; omega
  · show win3_0.index t (1 : Fin 2) * 64 + 1 * q.val = win3_4.index t (1 : Fin 2) * 64 + 1 * q.val; omega
  · show win3_1.index t (0 : Fin 2) * 5000 + 1 * p.val = win3_4.index t (0 : Fin 2) * 5000 + 1 * p.val; omega
  · show win3_1.index t (1 : Fin 2) * 64 + 1 * q.val = win3_4.index t (1 : Fin 2) * 64 + 1 * q.val; omega
  · show win3_2.index t (0 : Fin 2) * 5000 + 1 * p.val = win3_4.index t (0 : Fin 2) * 5000 + 1 * p.val; omega
  · show win3_3.index t (1 : Fin 2) * 64 + 1 * q.val = win3_4.index t (1 : Fin 2) * 64 + 1 * q.val; omega

-- Row r lies in the block of point r / 5000: the twenty blocks of 5000 rows tile the 100000 rows.
theorem cover3 (i : S100000x64.Idx) : ∃ t : Fin cfg3.N, (cfg3.win 4).flush t = true ∧ i ∈ ((cfg3.win 4).blk t).view.set := by
  have hi0 : (i 0).val < 100000 := (i 0).isLt
  have hN : cfg3.N = 20 := N_3
  let t : Fin cfg3.N := ⟨(i 0).val / 5000, by rw [hN]; omega⟩
  obtain ⟨-, -, -, -, e0, e1⟩ := idx3 t
  refine ⟨t, flush3_4 t, ?_⟩
  show i ∈ ((View.whole main_v60).slice (win3_4.rect t)).set
  rw [View.set_slice_whole, Rect.mem_set_unit]
  exact row_block (B := 5000) (by decide) i _ e0 e1

theorem arr3 (c : Dev nD) :
    (dat3 (F := Ideal) V c).arrAt 4 cfg3.N = G3 (V c main_v57) (V c main_v44) (V c main_v59) (V c main_v58) :=
  (dat3 V c).arrAt_eq_of_cover 4 _ (fun t _ => flushed3_eq V c t) cover3

end Cert.KernelIdeal.Val

end
-- ==== Proof.KI.Val0.lean ====
import proofs.«108427_j91276644975069_1_alg».proof.Proof.KI.R0
import proofs.«108427_j91276644975069_1_alg».proof.Proof.KI.PayMM
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open MM

abbrev G0 : (S100000x64.Idx → EReal) → (S64x128.Idx → EReal) → S100000x128.Idx → EReal := mmG

theorem G0_eq (x : S100000x64.Idx → EReal) (w : S64x128.Idx → EReal) (i : S100000x128.Idx)
    (L : Fin 64 → S100000x64.Idx) (R : Fin 64 → S64x128.Idx)
    (hL0 : ∀ k, (L k 0).val = (i 0).val) (hL1 : ∀ k, (L k 1).val = k.val)
    (hR0 : ∀ k, (R k 0).val = k.val) (hR1 : ∀ k, (R k 1).val = (i 1).val) :
    G0 x w i = ∑ k : Fin 64, x (L k) * w (R k) :=
  mmG_eq x w i L R hL0 hL1 hR0 hR1

variable (V : (c : Dev nD) → (b : Ref sig .tc) → Buf (Elt Ideal) ((c : Thread nD τ).loc b))

theorem idx_facts0 : ∀ t : Fin cfg0.N, rowIdx (win0_0.index t) t ∧ rowIdx (win0_1.index t) 0 ∧ rowIdx (win0_2.index t) t :=
  (by decide +kernel : ∀ t : Fin grid0.N, _)

-- Point t multiplies rows 5000 t … 5000 t + 4999 of the left array by the whole right array, so it writes block t of the product.
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero zeroOff]
  simp only [View.ld_unit_zero (S := S5000x64) zeroOff, View.ld_unit_zero (S := S64x128) zeroOff]
  obtain ⟨⟨l0, l1⟩, ⟨r0, r1⟩, o0, o1⟩ := idx_facts0 t
  funext j
  obtain ⟨p, q, rfl⟩ : ∃ (p : Fin 5000) (q : Fin 128), j = ix2 p q := ⟨j 0, j 1, eq_ix2 j⟩
  refine (pay0_apply (iblk0 V c 0 t) (iblk0 V c 1 t) p q).trans (G0_eq (V c main_arg0) (V c main_arg2) (((cfg0.win 2).blk t).view.emb (ix2 p q))
    (fun k => ((cfg0.win 0).blk t).view.emb (ix2 p k)) (fun k => ((cfg0.win 1).blk t).view.emb (ix2 k q))
    (fun k => ?_) (fun k => ?_) (fun k => ?_) (fun k => ?_)).symm
  · show win0_0.index t (0 : Fin 2) * 5000 + 1 * p.val = win0_2.index t (0 : Fin 2) * 5000 + 1 * p.val; omega
  · show win0_0.index t (1 : Fin 2) * 64 + 1 * k.val = k.val; omega
  · show win0_1.index t (0 : Fin 2) * 64 + 1 * k.val = k.val; omega
  · show win0_1.index t (1 : Fin 2) * 128 + 1 * q.val = win0_2.index t (1 : Fin 2) * 128 + 1 * q.val; omega

-- Row r lies in the block of point r / 5000: the twenty blocks of 5000 rows tile the 100000 rows.
theorem cover0 (i : S100000x128.Idx) : ∃ t : Fin cfg0.N, (cfg0.win 2).flush t = true ∧ i ∈ ((cfg0.win 2).blk t).view.set := by
  have hi0 : (i 0).val < 100000 := (i 0).isLt
  have hN : cfg0.N = 20 := N_0
  let t : Fin cfg0.N := ⟨(i 0).val / 5000, by rw [hN]; omega⟩
  obtain ⟨-, -, e0, e1⟩ := idx_facts0 t
  refine ⟨t, flush0_2 t, ?_⟩
  show i ∈ ((View.whole main_v27).slice (win0_2.rect t)).set
  rw [View.set_slice_whole, Rect.mem_set_unit]
  exact row_block (B := 5000) (by decide) i _ e0 e1

theorem arr0 (c : Dev nD) : (dat0 (F := Ideal) V c).arrAt 2 cfg0.N = G0 (V c main_arg0) (V c main_arg2) :=
  (dat0 V c).arrAt_eq_of_cover 2 _ (fun t _ => flushed0_eq V c t) cover0

end Cert.KernelIdeal.Val

end
-- ==== Proof.KI.Val1.lean ====
import proofs.«108427_j91276644975069_1_alg».proof.Proof.KI.R1
import proofs.«108427_j91276644975069_1_alg».proof.Proof.KI.PayComb
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open Comb

abbrev G1 : (S100000x128.Idx → EReal) → (S100000x128.Idx → EReal) → (S100000x1.Idx → EReal) → (S1x128.Idx → EReal) → S100000x128.Idx → EReal :=
  comb relu0

theorem G1_eq (agg h : S100000x128.Idx → EReal) (sc : S100000x1.Idx → EReal) (b : S1x128.Idx → EReal) (i : S100000x128.Idx)
    (k2 : S100000x1.Idx) (k3 : S1x128.Idx) (h2 : (k2 0).val = (i 0).val) (h3 : (k3 1).val = (i 1).val) :
    G1 agg h sc b i = FloatOps.maximumf (F := Ideal) (φ := .f32) (FloatOps.addf (F := Ideal) (φ := .f32) (FloatOps.addf (F := Ideal) (φ := .f32) (agg i) (FloatOps.mulf (F := Ideal) (φ := .f32) (h i) (sc k2))) (b k3)) (Ideal.ofBits .f32 0x00000000#32) :=
  comb_eq relu0 agg h sc b i i i k2 k3 rfl rfl h2 h3

theorem idx1 : ∀ t : Fin cfg1.N, rowIdx (win1_0.index t) t ∧ rowIdx (win1_1.index t) t ∧ rowIdx (win1_2.index t) t
    ∧ rowIdx (win1_3.index t) 0 ∧ rowIdx (win1_4.index t) t :=
  (by decide +kernel : ∀ t : Fin grid1.N, _)

variable (V : (c : Dev nD) → (b : Ref sig .tc) → Buf (Elt Ideal) ((c : Thread nD τ).loc b))

-- At point t the aggregate and the features are read at the output block's own indices, the scale at its rows and the bias at its lanes, so point t writes block t.
theorem flushed1_eq (c : Dev nD) (t : Fin cfg1.N) :
    (dat1 (F := Ideal) V c).flushed 4 t
      = ((cfg1.win 4).blk t).view.read (Elt Ideal) (G1 (V c main_v40) (V c main_v27) (V c main_v42) (V c main_v41)) := by
  show (cfg1.win 4).cut (grid1.coords t) ((dat1 V c).after 4 t) = _
  rw [after1_4]
  unfold out1_4
  rw [View.canon_unit_zero zeroOff]
  simp only [View.ld_unit_zero (S := S5000x128) zeroOff, View.ld_unit_zero (S := S5000x1) zeroOff, View.ld_unit_zero (S := S1x128) zeroOff]
  obtain ⟨⟨e00, e01⟩, ⟨e10, e11⟩, ⟨e20, -⟩, ⟨-, e31⟩, e40, e41⟩ := idx1 t
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) (iblk1 V c 3 t) p q).trans
    (comb_eq (n := 100000) (f := 128) relu0 (V c main_v40) (V c main_v27) (V c main_v42) (V c main_v41) (((cfg1.win 4).blk t).view.emb (ix2 p q))
      (((cfg1.win 0).blk t).view.emb (ix2 p q)) (((cfg1.win 1).blk t).view.emb (ix2 p q))
      (((cfg1.win 2).blk t).view.emb (ix2 p (0 : Fin 1))) (((cfg1.win 3).blk t).view.emb (ix2 (0 : Fin 1) q))
      (Shape.idx_ext₂ ?_ ?_) (Shape.idx_ext₂ ?_ ?_) ?_ ?_).symm
  · show win1_0.index t (0 : Fin 2) * 5000 + 1 * p.val = win1_4.index t (0 : Fin 2) * 5000 + 1 * p.val; omega
  · show win1_0.index t (1 : Fin 2) * 128 + 1 * q.val = win1_4.index t (1 : Fin 2) * 128 + 1 * q.val; omega
  · show win1_1.index t (0 : Fin 2) * 5000 + 1 * p.val = win1_4.index t (0 : Fin 2) * 5000 + 1 * p.val; omega
  · show win1_1.index t (1 : Fin 2) * 128 + 1 * q.val = win1_4.index t (1 : Fin 2) * 128 + 1 * q.val; omega
  · show win1_2.index t (0 : Fin 2) * 5000 + 1 * p.val = win1_4.index t (0 : Fin 2) * 5000 + 1 * p.val; omega
  · show win1_3.index t (1 : Fin 2) * 128 + 1 * q.val = win1_4.index t (1 : Fin 2) * 128 + 1 * q.val; omega

-- Row r lies in the block of point r / 5000: the twenty blocks of 5000 rows tile the 100000 rows.
theorem cover1 (i : S100000x128.Idx) : ∃ t : Fin cfg1.N, (cfg1.win 4).flush t = true ∧ i ∈ ((cfg1.win 4).blk t).view.set := by
  have hi0 : (i 0).val < 100000 := (i 0).isLt
  have hN : cfg1.N = 20 := N_1
  let t : Fin cfg1.N := ⟨(i 0).val / 5000, by rw [hN]; omega⟩
  obtain ⟨-, -, -, -, e0, e1⟩ := idx1 t
  refine ⟨t, flush1_4 t, ?_⟩
  show i ∈ ((View.whole main_v43).slice (win1_4.rect t)).set
  rw [View.set_slice_whole, Rect.mem_set_unit]
  exact row_block (B := 5000) (by decide) i _ e0 e1

theorem arr1 (c : Dev nD) :
    (dat1 (F := Ideal) V c).arrAt 4 cfg1.N = G1 (V c main_v40) (V c main_v27) (V c main_v42) (V c main_v41) :=
  (dat1 V c).arrAt_eq_of_cover 4 _ (fun t _ => flushed1_eq V c t) cover1

end Cert.KernelIdeal.Val

end
-- ==== Proof.Bridge.L1.lean ====
import proofs.«108427_j91276644975069_1_alg».proof.Proof.RefGen
import proofs.«108427_j91276644975069_1_alg».proof.Proof.KI.Fold
import proofs.«108427_j91276644975069_1_alg».proof.Proof.KI.Val0
import proofs.«108427_j91276644975069_1_alg».proof.Proof.KI.Val1
import Idealize.ShloMosaic.Lib.StableHlo.Run
import Idealize.ShloMosaic.Lib.Pipeline.Value
import Idealize.ShloMosaic.Lib.ValueIdx

noncomputable section

namespace Cert.Bridge

open Idealize.ShloMosaic Idealize.ShloMosaic.TcCoe Idealize.SL.Sem Idealize.ShloMosaic.StableHlo
open Cert.KernelIdeal Cert.KernelIdeal.Fr Cert.KernelIdeal.Val Cert.ReferenceIdeal.Read

variable (m : (ℓ : Loc nD τ sig) → Buf (Elt Ideal) ℓ) (ρ : Dev nD → PrngReg) (c : Dev nD)

abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)
abbrev a8 := m ((c.tc : Thread nD τ).loc main_arg8)
abbrev a9 := m ((c.tc : Thread nD τ).loc main_arg9)

-- Cast to a one-lane column, or to a one-row table, a vector keeps its entries in order.
theorem col_cast {α : Type} {n : ℕ} (x : (⟨1, ![n]⟩ : Shape).Idx → α) (h : (⟨1, ![n]⟩ : Shape).ShapeCasts ⟨2, ![n, 1]⟩)
    (j : (⟨2, ![n, 1]⟩ : Shape).Idx) (k : (⟨1, ![n]⟩ : Shape).Idx) (hk : (k 0).val = (j 0).val) :
    shapeCast ⟨2, ![n, 1]⟩ x h j = x k :=
  shapeCast_apply x h j k (by
    have h1 : (j 1).val < 1 := (j 1).isLt
    rw [Shape.rowMajor_val_one, Shape.rowMajor_val_two]
    show (k 0).val = (j 0).val * 1 + (j 1).val
    omega)

theorem row_cast {α : Type} {n : ℕ} (x : (⟨1, ![n]⟩ : Shape).Idx → α) (h : (⟨1, ![n]⟩ : Shape).ShapeCasts ⟨2, ![1, n]⟩)
    (j : (⟨2, ![1, n]⟩ : Shape).Idx) (k : (⟨1, ![n]⟩ : Shape).Idx) (hk : (k 0).val = (j 1).val) :
    shapeCast ⟨2, ![1, n]⟩ x h j = x k :=
  shapeCast_apply x h j k (by
    have h0 : (j 0).val = 0 := Nat.lt_one_iff.mp (j 0).isLt
    rw [Shape.rowMajor_val_one, Shape.rowMajor_val_two]
    show (k 0).val = (j 0).val * n + (j 1).val
    rw [h0, Nat.zero_mul, Nat.zero_add, hk])

-- The edges' two ends, the edge weights and the self-loop weights are the reference's, operation for operation.
theorem st_host0 : V1 m ρ c main_v1 = val_main_v1 (F := Ideal) (a1 m c) ∧ V1 m ρ c main_v3 = val_main_v3 (F := Ideal) (a1 m c)
    ∧ V1 m ρ c main_v25 = val_main_v26 (F := Ideal) (a1 m c) ∧ V1 m ρ c main_v26 = val_main_v40 (F := Ideal) (a1 m c) := by
  refine ⟨?_, ?_, ?_, ?_⟩ <;>
    (show StableHlo.after (Gen.hostOps0 (F := Ideal)) (W0 m ρ c) _ = _
     after_results_simp
     rfl)

theorem st_h1 : V2 m ρ c main_v27 = val_main_v11 (F := Ideal) (a0 m c) (a2 m c) := by
  have e : V2 m ρ c main_v27 = (dat0 (F := Ideal) (V1 m ρ) c).arrAt 2 cfg0.N := W2_arr m ρ c 2
  have h0 : V1 m ρ c main_arg0 = a0 m c := W1_of m ρ c _ (by decide)
  have h2 : V1 m ρ c main_arg2 = a2 m c := W1_of m ρ c _ (by decide)
  rw [e, arr0, h0, h2]
  funext i
  rw [val_main_v11_apply]
  exact G0_eq _ _ i (lidx_main_v11 i) (ridx_main_v11 i) (fun _ => rfl) (fun _ => rfl) (fun _ => rfl) (fun _ => rfl)

theorem carry15 (b : Ref sig .tc)
    (h : (∀ w, Pipeline.arrRef spec0 w ≠ b) ∧ b ∉ Gen.hostOps1_W ∧ (∀ w, Pipeline.arrRef spec1 w ≠ b) ∧ ∀ w, Pipeline.arrRef spec2 w ≠ b) :
    W5 m ρ c (Proc.devRef .tc b) = W1 m ρ c (Proc.devRef .tc b) :=
  (W5_of_ne m ρ c b h.2.2.2).trans <| (W4_of_ne m ρ c b h.2.2.1).trans <| (W3_of m ρ c b h.2.1).trans (W2_of_ne m ρ c b h.1)

theorem st_agg1 : V3 m ρ c main_v40 = val_main_v39 (F := Ideal) (a0 m c) (a1 m c) (a2 m c) := by
  show StableHlo.after (Gen.hostOps1 (F := Ideal)) (W2 m ρ c) (Proc.devRef .tc main_v40) = _
  after_results_simp
  rw [show W2 m ρ c (Proc.devRef .tc main_v1) = _ from (W2_of_ne m ρ c _ (by decide)).trans (st_host0 m ρ c).1,
    show W2 m ρ c (Proc.devRef .tc main_v3) = _ from (W2_of_ne m ρ c _ (by decide)).trans (st_host0 m ρ c).2.1,
    show W2 m ρ c (Proc.devRef .tc main_v25) = _ from (W2_of_ne m ρ c _ (by decide)).trans (st_host0 m ρ c).2.2.1,
    show W2 m ρ c (Proc.devRef .tc main_v27) = _ from st_h1 m ρ c]
  rfl

theorem rd_v42 (k : S100000x1.Idx) :
    (V3 m ρ c main_v42 : S100000x1.Idx → EReal) k = val_main_v40 (F := Ideal) (a1 m c) (idx_main_v41 k) := by
  show (StableHlo.after (Gen.hostOps1 (F := Ideal)) (W2 m ρ c) (Proc.devRef .tc main_v42) : S100000x1.Idx → EReal) k = _
  after_results_simp
  rw [show W2 m ρ c (Proc.devRef .tc main_v26) = _ from (W2_of_ne m ρ c _ (by decide)).trans (st_host0 m ρ c).2.2.2]
  exact col_cast _ _ k (idx_main_v41 k) rfl

theorem rd_v41 (k : S1x128.Idx) :
    (V3 m ρ c main_v41 : S1x128.Idx → EReal) k = a3 m c (idx_main_v45 k) := by
  show (StableHlo.after (Gen.hostOps1 (F := Ideal)) (W2 m ρ c) (Proc.devRef .tc main_v41) : S1x128.Idx → EReal) k = _
  after_results_simp
  rw [show W2 m ρ c (Proc.devRef .tc main_arg3) = a3 m c from (W2_of_ne m ρ c _ (by decide)).trans (W1_of m ρ c _ (by decide))]
  exact row_cast _ _ k (idx_main_v45 k) rfl

theorem st_hid : V4 m ρ c main_v43 = val_main_v48 (F := Ideal) (a0 m c) (a1 m c) (a2 m c) (a3 m c) := by
  have e : V4 m ρ c main_v43 = (dat1 (F := Ideal) (V3 m ρ) c).arrAt 4 cfg1.N := W4_arr m ρ c 4
  have h27 : V3 m ρ c main_v27 = val_main_v11 (F := Ideal) (a0 m c) (a2 m c) :=
    (W3_of m ρ c _ (by decide)).trans (st_h1 m ρ c)
  rw [e, arr1, st_agg1, h27]
  funext i
  rw [G1_eq _ _ _ _ i (idx_main_v42 i) (idx_main_v46 i) rfl rfl, rd_v42, rd_v41,
    val_main_v48_apply, val_main_v47_apply, val_main_v44_apply, val_main_v43_apply, val_main_v42_apply, val_main_v41_apply,
    val_main_v46_apply, val_main_v45_apply, val_main_call0_v0_apply, val_main_call0_cst_apply]
  rfl

end Cert.Bridge

end
-- ==== Proof.Bridge.L2.lean ====
import proofs.«108427_j91276644975069_1_alg».proof.Proof.RefGen
import proofs.«108427_j91276644975069_1_alg».proof.Proof.KI.Fold
import proofs.«108427_j91276644975069_1_alg».proof.Proof.KI.Val2
import proofs.«108427_j91276644975069_1_alg».proof.Proof.KI.Val3
import Idealize.ShloMosaic.Lib.StableHlo.Run
import Idealize.ShloMosaic.Lib.Pipeline.Value
import Idealize.ShloMosaic.Lib.ValueIdx
import Idealize.ShloMosaic.PureOps.Ideal.Laws
import proofs.«108427_j91276644975069_1_alg».proof.Proof.Bridge.L1

noncomputable section

namespace Cert.Bridge

open Idealize.ShloMosaic Idealize.ShloMosaic.TcCoe Idealize.SL.Sem Idealize.ShloMosaic.StableHlo
open Cert.KernelIdeal Cert.KernelIdeal.Fr Cert.KernelIdeal.Val Cert.ReferenceIdeal.Read

variable (m : (ℓ : Loc nD τ sig) → Buf (Elt Ideal) ℓ) (ρ : Dev nD → PrngReg) (c : Dev nD)

theorem c4_arg4 : V4 m ρ c main_arg4 = a4 m c :=
  (W4_of_ne m ρ c main_arg4 (by decide)).trans <| (W3_of m ρ c main_arg4 (by decide)).trans <|
    (W2_of_ne m ρ c main_arg4 (by decide)).trans (W1_of m ρ c main_arg4 (by decide))

theorem st_hmu : V5 m ρ c main_v44 = val_main_v49 (F := Ideal) (a0 m c) (a1 m c) (a2 m c) (a3 m c) (a4 m c) := by
  have h : V5 m ρ c main_v44 = (dat2 (F := Ideal) (V4 m ρ) c).arrAt 2 cfg2.N := W5_arr m ρ c 2
  rw [h, arr2, st_hid m ρ c, c4_arg4 m ρ c]
  funext i
  rw [val_main_v49_apply]
  exact G2_eq _ _ i (lidx_main_v49 i) (ridx_main_v49 i) (fun _ => rfl) (fun _ => rfl) (fun _ => rfl) (fun _ => rfl)

-- The reference recomputes the edge and self weights for each layer by the same operations on the same edge list.
theorem ref_norm_mu (x1 : (⟨Cert.ReferenceIdeal.S2x1600000, .i32⟩ : BufTy).Contents (Elt Ideal)) :
    val_main_v64 (F := Ideal) x1 = val_main_v26 (F := Ideal) x1 := rfl

theorem ref_self_mu (x1 : (⟨Cert.ReferenceIdeal.S2x1600000, .i32⟩ : BufTy).Contents (Elt Ideal)) :
    val_main_v78 (F := Ideal) x1 = val_main_v40 (F := Ideal) x1 := rfl

theorem c5_src : W5 m ρ c (Proc.devRef .tc main_v1) = val_main_v1 (F := Ideal) (a1 m c) :=
  (carry15 m ρ c _ (by decide)).trans (st_host0 m ρ c).1
theorem c5_dst : W5 m ρ c (Proc.devRef .tc main_v3) = val_main_v3 (F := Ideal) (a1 m c) :=
  (carry15 m ρ c _ (by decide)).trans (st_host0 m ρ c).2.1
theorem c5_norm : W5 m ρ c (Proc.devRef .tc main_v25) = val_main_v26 (F := Ideal) (a1 m c) :=
  (carry15 m ρ c _ (by decide)).trans (st_host0 m ρ c).2.2.1
theorem c5_self : W5 m ρ c (Proc.devRef .tc main_v26) = val_main_v40 (F := Ideal) (a1 m c) :=
  (carry15 m ρ c _ (by decide)).trans (st_host0 m ρ c).2.2.2
theorem c5_arg5 : W5 m ρ c (Proc.devRef .tc main_arg5) = a5 m c :=
  (carry15 m ρ c _ (by decide)).trans (W1_of m ρ c main_arg5 (by decide))

theorem st_aggmu : V6 m ρ c main_v57 = val_main_v77 (F := Ideal) (a0 m c) (a1 m c) (a2 m c) (a3 m c) (a4 m c) := by
  show StableHlo.after (Gen.hostOps3 (F := Ideal)) (W5 m ρ c) (Proc.devRef .tc main_v57) = _
  after_results_simp
  rw [c5_src m ρ c, c5_dst m ρ c, c5_norm m ρ c, ← ref_norm_mu, show W5 m ρ c (Proc.devRef .tc main_v44) = _ from st_hmu m ρ c]
  rfl

theorem st_selfcol_mu : V6 m ρ c main_v59 = val_main_v79 (F := Ideal) (a1 m c) := by
  show StableHlo.after (Gen.hostOps3 (F := Ideal)) (W5 m ρ c) (Proc.devRef .tc main_v59) = _
  after_results_simp
  rw [c5_self m ρ c]
  funext j
  rw [val_main_v79_apply, ref_self_mu]
  exact col_cast _ _ j (idx_main_v79 j) rfl

theorem st_biasrow_mu : V6 m ρ c main_v58 = val_main_v83 (F := Ideal) (a5 m c) := by
  show StableHlo.after (Gen.hostOps3 (F := Ideal)) (W5 m ρ c) (Proc.devRef .tc main_v58) = _
  after_results_simp
  rw [c5_arg5 m ρ c]
  funext j
  rw [val_main_v83_apply]
  exact row_cast _ _ j (idx_main_v83 j) rfl

theorem st_mu : V7 m ρ c Cert.KernelIdeal.main_v60 = Cert.ReferenceIdeal.Read.val_main_v85 (F := Ideal) (a0 m c) (a1 m c) (a2 m c) (a3 m c) (a4 m c) (a5 m c) := by
  have h : V7 m ρ c main_v60 = (dat3 (F := Ideal) (V6 m ρ) c).arrAt 4 cfg3.N := W7_arr m ρ c 4
  rw [h, arr3, st_aggmu m ρ c, show V6 m ρ c main_v44 = _ from (W6_of m ρ c main_v44 (by decide)).trans (st_hmu m ρ c),
    st_selfcol_mu m ρ c, st_biasrow_mu m ρ c]
  funext i
  rw [val_main_v85_apply, val_main_v82_apply, val_main_v81_apply, val_main_v80_apply, val_main_v84_apply]
  exact G3_eq _ _ _ _ i (idx_main_v80 i) (idx_main_v84 i) rfl rfl

end Cert.Bridge

end
-- ==== Proof.KI.Val4.lean ====
import proofs.«108427_j91276644975069_1_alg».proof.Proof.KI.R4
import proofs.«108427_j91276644975069_1_alg».proof.Proof.KI.PayMM
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open MM

abbrev G4 : (S100000x128.Idx → EReal) → (S128x64.Idx → EReal) → S100000x64.Idx → EReal := mmG

theorem G4_eq (x : S100000x128.Idx → EReal) (w : S128x64.Idx → EReal) (i : S100000x64.Idx)
    (L : Fin 128 → S100000x128.Idx) (R : Fin 128 → S128x64.Idx)
    (hL0 : ∀ k, (L k 0).val = (i 0).val) (hL1 : ∀ k, (L k 1).val = k.val)
    (hR0 : ∀ k, (R k 0).val = k.val) (hR1 : ∀ k, (R k 1).val = (i 1).val) :
    G4 x w i = ∑ k : Fin 128, x (L k) * w (R k) :=
  mmG_eq x w i L R hL0 hL1 hR0 hR1

variable (V : (c : Dev nD) → (b : Ref sig .tc) → Buf (Elt Ideal) ((c : Thread nD τ).loc b))

theorem idx_facts4 : ∀ t : Fin cfg4.N, rowIdx (win4_0.index t) t ∧ rowIdx (win4_1.index t) 0 ∧ rowIdx (win4_2.index t) t :=
  (by decide +kernel : ∀ t : Fin grid4.N, _)

-- Point t multiplies rows 5000 t … 5000 t + 4999 of the left array by the whole right array, so it writes block t of the product.
theorem flushed4_eq (c : Dev nD) (t : Fin cfg4.N) :
    (dat4 V c).flushed 2 t = ((cfg4.win 2).blk t).view.read (Elt Ideal) (G4 (V c main_v43) (V c main_arg6)) := by
  show (cfg4.win 2).cut (grid4.coords t) ((dat4 V c).after 2 t) = _
  rw [after4_2]
  unfold out4_2
  rw [View.canon_unit_zero zeroOff]
  simp only [View.ld_unit_zero (S := S5000x128) zeroOff, View.ld_unit_zero (S := S128x64) zeroOff]
  obtain ⟨⟨l0, l1⟩, ⟨r0, r1⟩, o0, o1⟩ := idx_facts4 t
  funext j
  obtain ⟨p, q, rfl⟩ : ∃ (p : Fin 5000) (q : Fin 64), j = ix2 p q := ⟨j 0, j 1, eq_ix2 j⟩
  refine (pay4_apply (iblk4 V c 0 t) (iblk4 V c 1 t) p q).trans (G4_eq (V c main_v43) (V c main_arg6) (((cfg4.win 2).blk t).view.emb (ix2 p q))
    (fun k => ((cfg4.win 0).blk t).view.emb (ix2 p k)) (fun k => ((cfg4.win 1).blk t).view.emb (ix2 k q))
    (fun k => ?_) (fun k => ?_) (fun k => ?_) (fun k => ?_)).symm
  · show win4_0.index t (0 : Fin 2) * 5000 + 1 * p.val = win4_2.index t (0 : Fin 2) * 5000 + 1 * p.val; omega
  · show win4_0.index t (1 : Fin 2) * 128 + 1 * k.val = k.val; omega
  · show win4_1.index t (0 : Fin 2) * 128 + 1 * k.val = k.val; omega
  · show win4_1.index t (1 : Fin 2) * 64 + 1 * q.val = win4_2.index t (1 : Fin 2) * 64 + 1 * q.val; omega

-- Row r lies in the block of point r / 5000: the twenty blocks of 5000 rows tile the 100000 rows.
theorem cover4 (i : S100000x64.Idx) : ∃ t : Fin cfg4.N, (cfg4.win 2).flush t = true ∧ i ∈ ((cfg4.win 2).blk t).view.set := by
  have hi0 : (i 0).val < 100000 := (i 0).isLt
  have hN : cfg4.N = 20 := N_4
  let t : Fin cfg4.N := ⟨(i 0).val / 5000, by rw [hN]; omega⟩
  obtain ⟨-, -, e0, e1⟩ := idx_facts4 t
  refine ⟨t, flush4_2 t, ?_⟩
  show i ∈ ((View.whole main_v61).slice (win4_2.rect t)).set
  rw [View.set_slice_whole, Rect.mem_set_unit]
  exact row_block (B := 5000) (by decide) i _ e0 e1

theorem arr4 (c : Dev nD) : (dat4 (F := Ideal) V c).arrAt 2 cfg4.N = G4 (V c main_v43) (V c main_arg6) :=
  (dat4 V c).arrAt_eq_of_cover 2 _ (fun t _ => flushed4_eq V c t) cover4

end Cert.KernelIdeal.Val

end
-- ==== Proof.KI.Val5.lean ====
import proofs.«108427_j91276644975069_1_alg».proof.Proof.KI.R5
import proofs.«108427_j91276644975069_1_alg».proof.Proof.KI.PayComb
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open Comb

abbrev G5 : (S100000x64.Idx → EReal) → (S100000x64.Idx → EReal) → (S100000x1.Idx → EReal) → (S1x64.Idx → EReal) → S100000x64.Idx → EReal :=
  comb cap10

theorem G5_eq (agg h : S100000x64.Idx → EReal) (sc : S100000x1.Idx → EReal) (b : S1x64.Idx → EReal) (i : S100000x64.Idx)
    (k2 : S100000x1.Idx) (k3 : S1x64.Idx) (h2 : (k2 0).val = (i 0).val) (h3 : (k3 1).val = (i 1).val) :
    G5 agg h sc b i = FloatOps.minimumf (F := Ideal) (φ := .f32) (FloatOps.addf (F := Ideal) (φ := .f32) (FloatOps.addf (F := Ideal) (φ := .f32) (agg i) (FloatOps.mulf (F := Ideal) (φ := .f32) (h i) (sc k2))) (b k3)) (Ideal.ofBits .f32 0x41200000#32) :=
  comb_eq cap10 agg h sc b i i i k2 k3 rfl rfl h2 h3

theorem idx5 : ∀ t : Fin cfg5.N, rowIdx (win5_0.index t) t ∧ rowIdx (win5_1.index t) t ∧ rowIdx (win5_2.index t) t
    ∧ rowIdx (win5_3.index t) 0 ∧ rowIdx (win5_4.index t) t :=
  (by decide +kernel : ∀ t : Fin grid5.N, _)

variable (V : (c : Dev nD) → (b : Ref sig .tc) → Buf (Elt Ideal) ((c : Thread nD τ).loc b))

-- At point t the aggregate and the features are read at the output block's own indices, the scale at its rows and the bias at its lanes, so point t writes block t.
theorem flushed5_eq (c : Dev nD) (t : Fin cfg5.N) :
    (dat5 (F := Ideal) V c).flushed 4 t
      = ((cfg5.win 4).blk t).view.read (Elt Ideal) (G5 (V c main_v74) (V c main_v61) (V c main_v76) (V c main_v75)) := by
  show (cfg5.win 4).cut (grid5.coords t) ((dat5 V c).after 4 t) = _
  rw [after5_4]
  unfold out5_4
  rw [View.canon_unit_zero zeroOff]
  simp only [View.ld_unit_zero (S := S5000x64) zeroOff, View.ld_unit_zero (S := S5000x1) zeroOff, View.ld_unit_zero (S := S1x64) zeroOff]
  obtain ⟨⟨e00, e01⟩, ⟨e10, e11⟩, ⟨e20, -⟩, ⟨-, e31⟩, e40, e41⟩ := idx5 t
  funext j
  obtain ⟨p, q, rfl⟩ : ∃ (p : Fin 5000) (q : Fin 64), j = ix2 p q := ⟨j 0, j 1, eq_ix2 j⟩
  refine (pay5_apply (iblk5 V c 0 t) (iblk5 V c 1 t) (iblk5 V c 2 t) (iblk5 V c 3 t) p q).trans
    (comb_eq (n := 100000) (f := 64) cap10 (V c main_v74) (V c main_v61) (V c main_v76) (V c main_v75) (((cfg5.win 4).blk t).view.emb (ix2 p q))
      (((cfg5.win 0).blk t).view.emb (ix2 p q)) (((cfg5.win 1).blk t).view.emb (ix2 p q))
      (((cfg5.win 2).blk t).view.emb (ix2 p (0 : Fin 1))) (((cfg5.win 3).blk t).view.emb (ix2 (0 : Fin 1) q))
      (Shape.idx_ext₂ ?_ ?_) (Shape.idx_ext₂ ?_ ?_) ?_ ?_).symm
  · show win5_0.index t (0 : Fin 2) * 5000 + 1 * p.val = win5_4.index t (0 : Fin 2) * 5000 + 1 * p.val; omega
  · show win5_0.index t (1 : Fin 2) * 64 + 1 * q.val = win5_4.index t (1 : Fin 2) * 64 + 1 * q.val; omega
  · show win5_1.index t (0 : Fin 2) * 5000 + 1 * p.val = win5_4.index t (0 : Fin 2) * 5000 + 1 * p.val; omega
  · show win5_1.index t (1 : Fin 2) * 64 + 1 * q.val = win5_4.index t (1 : Fin 2) * 64 + 1 * q.val; omega
  · show win5_2.index t (0 : Fin 2) * 5000 + 1 * p.val = win5_4.index t (0 : Fin 2) * 5000 + 1 * p.val; omega
  · show win5_3.index t (1 : Fin 2) * 64 + 1 * q.val = win5_4.index t (1 : Fin 2) * 64 + 1 * q.val; omega

-- Row r lies in the block of point r / 5000: the twenty blocks of 5000 rows tile the 100000 rows.
theorem cover5 (i : S100000x64.Idx) : ∃ t : Fin cfg5.N, (cfg5.win 4).flush t = true ∧ i ∈ ((cfg5.win 4).blk t).view.set := by
  have hi0 : (i 0).val < 100000 := (i 0).isLt
  have hN : cfg5.N = 20 := N_5
  let t : Fin cfg5.N := ⟨(i 0).val / 5000, by rw [hN]; omega⟩
  obtain ⟨-, -, -, -, e0, e1⟩ := idx5 t
  refine ⟨t, flush5_4 t, ?_⟩
  show i ∈ ((View.whole main_v77).slice (win5_4.rect t)).set
  rw [View.set_slice_whole, Rect.mem_set_unit]
  exact row_block (B := 5000) (by decide) i _ e0 e1

theorem arr5 (c : Dev nD) :
    (dat5 (F := Ideal) V c).arrAt 4 cfg5.N = G5 (V c main_v74) (V c main_v61) (V c main_v76) (V c main_v75) :=
  (dat5 V c).arrAt_eq_of_cover 4 _ (fun t _ => flushed5_eq V c t) cover5

end Cert.KernelIdeal.Val

end
-- ==== Proof.Bridge.L3.lean ====
import proofs.«108427_j91276644975069_1_alg».proof.Proof.RefGen
import proofs.«108427_j91276644975069_1_alg».proof.Proof.KI.Fold
import proofs.«108427_j91276644975069_1_alg».proof.Proof.KI.Val4
import proofs.«108427_j91276644975069_1_alg».proof.Proof.KI.Val5
import proofs.«108427_j91276644975069_1_alg».proof.Proof.Bridge.L1
import Idealize.ShloMosaic.Lib.StableHlo.Run
import Idealize.ShloMosaic.Lib.Pipeline.Value
import Idealize.ShloMosaic.Lib.ValueIdx
import Idealize.ShloMosaic.Lib.ValueLayout

noncomputable section

namespace Cert.Bridge

open Idealize.ShloMosaic Idealize.ShloMosaic.TcCoe Idealize.SL.Sem Idealize.ShloMosaic.StableHlo
open Cert.KernelIdeal Cert.KernelIdeal.Fr Cert.KernelIdeal.Val Cert.ReferenceIdeal.Read

variable (m : (ℓ : Loc nD τ sig) → Buf (Elt Ideal) ℓ) (ρ : Dev nD → PrngReg) (c : Dev nD)

theorem W8_carry (b : Ref sig .tc)
    (h : ((∀ w, Pipeline.arrRef spec0 w ≠ b) ∧ b ∉ Gen.hostOps1_W ∧ (∀ w, Pipeline.arrRef spec1 w ≠ b) ∧ ∀ w, Pipeline.arrRef spec2 w ≠ b)
      ∧ b ∉ Gen.hostOps3_W ∧ (∀ w, Pipeline.arrRef spec3 w ≠ b) ∧ ∀ w, Pipeline.arrRef spec4 w ≠ b) :
    W8 m ρ c (Proc.devRef .tc b) = W1 m ρ c (Proc.devRef .tc b) :=
  (W8_of_ne m ρ c b h.2.2.2).trans <| (W7_of_ne m ρ c b h.2.2.1).trans <| (W6_of m ρ c b h.2.1).trans (carry15 m ρ c b h.1)

theorem W8_src : W8 m ρ c (Proc.devRef .tc main_v1) = val_main_v1 (F := Ideal) (a1 m c) :=
  (W8_carry m ρ c _ (by decide)).trans (st_host0 m ρ c).1
theorem W8_dst : W8 m ρ c (Proc.devRef .tc main_v3) = val_main_v3 (F := Ideal) (a1 m c) :=
  (W8_carry m ρ c _ (by decide)).trans (st_host0 m ρ c).2.1
theorem W8_norm : W8 m ρ c (Proc.devRef .tc main_v25) = val_main_v26 (F := Ideal) (a1 m c) :=
  (W8_carry m ρ c _ (by decide)).trans (st_host0 m ρ c).2.2.1
theorem W8_self : W8 m ρ c (Proc.devRef .tc main_v26) = val_main_v40 (F := Ideal) (a1 m c) :=
  (W8_carry m ρ c _ (by decide)).trans (st_host0 m ρ c).2.2.2
theorem W8_bls : W8 m ρ c (Proc.devRef .tc main_arg7) = a7 m c :=
  (W8_carry m ρ c _ (by decide)).trans (W1_of m ρ c main_arg7 (by decide))

theorem V7_hid : V7 m ρ c main_v43 = V4 m ρ c main_v43 :=
  (W7_of_ne m ρ c main_v43 (by decide)).trans <| (W6_of m ρ c main_v43 (by decide)).trans <|
    (W5_arr m ρ c 0).trans (((dat2 (V4 m ρ) c).arrAt_in 0 rfl _).trans (A_eq2 (V4 m ρ) c 0))

theorem V7_wls : V7 m ρ c main_arg6 = a6 m c :=
  (W7_of_ne m ρ c main_arg6 (by decide)).trans <| (W6_of m ρ c main_arg6 (by decide)).trans <|
    (carry15 m ρ c main_arg6 (by decide)).trans (W1_of m ρ c main_arg6 (by decide))

theorem st_hls : V8 m ρ c main_v61 = val_main_v86 (F := Ideal) (a0 m c) (a1 m c) (a2 m c) (a3 m c) (a6 m c) := by
  refine ((W8_arr m ρ c 2).trans (arr4 (V7 m ρ) c)).trans ?_
  rw [V7_hid m ρ c, st_hid m ρ c, V7_wls m ρ c]
  funext i
  rw [G4_eq _ _ i (lidx_main_v86 i) (ridx_main_v86 i) (fun _ => rfl) (fun _ => rfl) (fun _ => rfl) (fun _ => rfl), val_main_v86_apply]

theorem norm_again (x1 : (⟨Cert.ReferenceIdeal.S2x1600000, .i32⟩ : BufTy).Contents (Elt Ideal)) :
    val_main_v101 (F := Ideal) x1 = val_main_v26 (F := Ideal) x1 := rfl

theorem self_again (x1 : (⟨Cert.ReferenceIdeal.S2x1600000, .i32⟩ : BufTy).Contents (Elt Ideal)) :
    val_main_v115 (F := Ideal) x1 = val_main_v40 (F := Ideal) x1 := rfl

theorem st_aggls : V9 m ρ c main_v74 = val_main_v114 (F := Ideal) (a0 m c) (a1 m c) (a2 m c) (a3 m c) (a6 m c) := by
  show StableHlo.after (Gen.hostOps5 (F := Ideal)) (W8 m ρ c) (Proc.devRef .tc main_v74) = _
  after_results_simp
  rw [W8_src m ρ c, W8_dst m ρ c, W8_norm m ρ c, ← norm_again, show W8 m ρ c (Proc.devRef .tc main_v61) = _ from st_hls m ρ c]
  rfl

theorem V9_selfcol : V9 m ρ c main_v76
    = shapeCast S100000x1 (val_main_v115 (F := Ideal) (a1 m c)) Gen.shapeCasts_S100000_S100000x1 := by
  show StableHlo.after (Gen.hostOps5 (F := Ideal)) (W8 m ρ c) (Proc.devRef .tc main_v76) = _
  after_results_simp
  rw [W8_self m ρ c, ← self_again]
  rfl

theorem V9_biasrow : V9 m ρ c main_v75 = shapeCast S1x64 (a7 m c) Gen.shapeCasts_S64_S1x64 := by
  show StableHlo.after (Gen.hostOps5 (F := Ideal)) (W8 m ρ c) (Proc.devRef .tc main_v75) = _
  after_results_simp
  rw [W8_bls m ρ c]
  rfl

theorem st_ls : V10 m ρ c Cert.KernelIdeal.main_v77
    = Cert.ReferenceIdeal.Read.val_main_v124 (F := Ideal) (a0 m c) (a1 m c) (a2 m c) (a3 m c) (a6 m c) (a7 m c) := by
  refine ((W10_arr m ρ c 4).trans (arr5 (V9 m ρ) c)).trans ?_
  rw [st_aggls m ρ c, show V9 m ρ c main_v61 = _ from (W9_of m ρ c main_v61 (by decide)).trans (st_hls m ρ c), V9_selfcol m ρ c, V9_biasrow m ρ c]
  funext i
  rw [G5_eq _ _ _ _ i (idx_main_v117 i) (idx_main_v121 i) rfl rfl,
    val_main_v124_apply, val_main_v122_apply, val_main_v119_apply, val_main_v118_apply, val_main_v117_apply, val_main_v116_apply,
    val_main_v121_apply, val_main_v120_apply, val_main_v123_apply, val_main_cst_22_apply]
  have e2 : shapeCast S100000x1 (val_main_v115 (F := Ideal) (a1 m c)) Gen.shapeCasts_S100000_S100000x1 (idx_main_v117 i)
      = val_main_v115 (F := Ideal) (a1 m c) (idx_main_v116 (idx_main_v117 i)) :=
    col_cast _ _ _ _ rfl
  have e3 : shapeCast S1x64 (a7 m c) Gen.shapeCasts_S64_S1x64 (idx_main_v121 i) = a7 m c (idx_main_v120 (idx_main_v121 i)) :=
    row_cast _ _ _ _ rfl
  rw [e2, e3]
  rfl

end Cert.Bridge

end
-- ==== Proof.KI.LossSpec.lean ====
import Idealize.ShloMosaic.PureOps.Ideal
import Idealize.ShloMosaic.Lib.ValueIdx

noncomputable section

namespace Cert.LossSpec

open Idealize.ShloMosaic

abbrev Tab : Type := (⟨2, ![100000, 64]⟩ : Shape).Idx → EReal

abbrev at2 (r : Fin 100000) (k : Fin 64) : (⟨2, ![100000, 64]⟩ : Shape).Idx := fun a => match a with
  | ⟨0, _⟩ => ⟨r.val, r.isLt⟩
  | ⟨1, _⟩ => ⟨k.val, k.isLt⟩

def rowDot (a b : Tab) (r : Fin 100000) : EReal := ∑ k : Fin 64, a (at2 r k) * b (at2 r k)

abbrev eps : EReal := Ideal.ofBits .f32 0x26901D7D#32
abbrev one : EReal := Ideal.ofBits .f32 0x3F800000#32
abbrev cnt : EReal := Ideal.ofBits .f32 0x47C35000#32

-- The two families' terms as functions of a pair's inner product s: log (σ(s) + ε) and log (1 - σ(s) + ε).
def posG (s : EReal) : EReal := Ideal.log (Ideal.logistic s + eps)
def negG (s : EReal) : EReal := Ideal.log ((one - Ideal.logistic s) + eps)

-- A family's mean over the 100000 pairs.
def mean (g : EReal → EReal) (zs zd : Tab) : EReal := Ideal.div (∑ r : Fin 100000, g (rowDot zs zd r)) cnt

def loss (zsp zdp zsn zdn : Tab) : EReal := -mean posG zsp zdp + -mean negG zsn zdn

end Cert.LossSpec

end
-- ==== Proof.KI.PayLoss.lean ====
import proofs.«108427_j91276644975069_1_alg».proof.Proof.Gen.KernelIdeal.Skeleton
import proofs.«108427_j91276644975069_1_alg».proof.Proof.KI.LossSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.LossSpec
open Idealize.ShloMosaic Idealize.ShloMosaic.TcCoe
open Idealize.ShloMosaic.ValueIdx
open scoped BigOperators

theorem idx_cell (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

-- Row-major position i * 1 + 0 of a column is position i of the vector it was cast from.
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

-- A sum along one axis of a rank-two array, read at the kept coordinate.
theorem laneSum_apply (v : FVec Ideal S5000x64 .f32) (h : S5000x64.Reduces [1] S5000) (hφ : FKind.Formats .f32)
    (hacc : (0x00000000#32 : BitVec 32) = 0x00000000#32) (r : Fin 5000) :
    multiReduction (F := Ideal) .add [1] S5000 v 0x00000000#32 h hφ hacc (ix1 r) = ∑ k : Fin 64, v (ix2 r k) :=
  (Ideal.multiReduction_add_single v 0x00000000#32 h hφ hacc (ix1 r)).trans
    (Finset.sum_congr rfl fun k _ => congrArg v (funext fun a => match a with
      | ⟨0, _⟩ => Fin.ext rfl
      | ⟨1, _⟩ => Fin.ext rfl))

theorem rowSum_apply (v : FVec Ideal S5000x1 .f32) (h : S5000x1.Reduces [0] S1) (hφ : FKind.Formats .f32)
    (hacc : (0x00000000#32 : BitVec 32) = 0x00000000#32) :
    multiReduction (F := Ideal) .add [0] S1 v 0x00000000#32 h hφ hacc (ix1 (0 : Fin 1)) = ∑ r : Fin 5000, v (ix2 r (0 : Fin 1)) :=
  (Ideal.multiReduction_add_single v 0x00000000#32 h hφ hacc (ix1 (0 : Fin 1))).trans
    (Finset.sum_congr rfl fun r _ => congrArg v (funext fun a => match a with
      | ⟨0, _⟩ => Fin.ext rfl
      | ⟨1, _⟩ => Fin.ext rfl))

def dotCol (a b : Vec Ideal S5000x64 .f32) : FVec Ideal S5000x1 .f32 :=
  shapeCast S5000x1
    (multiReduction (F := Ideal) .add [1] S5000
      (mulf (shapeCast S5000x64 a shapeCasts_S5000x64_S5000x64) (shapeCast S5000x64 b shapeCasts_S5000x64_S5000x64))
      0x00000000#32 reduces_S5000x64_S5000 (.inl rfl) rfl)
    shapeCasts_S5000_S5000x1

theorem dotCol_apply (a b : Vec Ideal S5000x64 .f32) (r : Fin 5000) :
    dotCol a b (ix2 r (0 : Fin 1)) = ∑ k : Fin 64, a (ix2 r k) * b (ix2 r k) := by
  refine (shapeCast_a_a1_apply _ shapeCasts_S5000_S5000x1 r (0 : Fin 1)).trans
    ((laneSum_apply _ reduces_S5000x64_S5000 (.inl rfl) rfl r).trans (Finset.sum_congr rfl fun k _ => ?_))
  show shapeCast S5000x64 a shapeCasts_S5000x64_S5000x64 (ix2 r k) * shapeCast S5000x64 b shapeCasts_S5000x64_S5000x64 (ix2 r k) = _
  rw [shapeCast_self a, shapeCast_self b]

theorem cell_add_rowSum (s : Vec Ideal S1x1 .f32) (col : FVec Ideal S5000x1 .f32) (j : S1x1.Idx) :
    addf s (shapeCast S1x1 (multiReduction (F := Ideal) .add [0] S1 col 0x00000000#32 reduces_S5000x1_S1 (.inl rfl) rfl)
        shapeCasts_S1_S1x1) j
      = s j + ∑ r : Fin 5000, col (ix2 r (0 : Fin 1)) := by
  obtain rfl := idx_cell j
  exact congrArg (s (ix2 (0 : Fin 1) (0 : Fin 1)) + ·)
    ((shapeCast_a_a1_apply _ shapeCasts_S1_S1x1 (0 : Fin 1) (0 : Fin 1)).trans (rowSum_apply col reduces_S5000x1_S1 (.inl rfl) rfl))

theorem k6pay1_eq (v : FVec Ideal S1x1 .f32) : k6_pay1 (F := Ideal) v = v :=
  shapeCast_self v shapeCasts_S1x1_S1x1

theorem k6pay4_apply (j : S1x1.Idx) : (k6_pay4 (F := Ideal)) j = 0 := by
  unfold k6_pay4
  exact (congrFun (shapeCast_self _ shapeCasts_S1x1_S1x1) j).trans Ideal.ofBits_zero_f32

theorem k6pay5_apply (j : S1x1.Idx) : (k6_pay5 (F := Ideal)) j = 0 := by
  unfold k6_pay5
  exact (congrFun (shapeCast_self _ shapeCasts_S1x1_S1x1) j).trans Ideal.ofBits_zero_f32

-- A running cell gains the sum over the tile's rows of 0 - (the family's term at the row's inner product).
theorem k6pay7_apply (a b : Vec Ideal S5000x64 .f32) (s : Vec Ideal S1x1 .f32) (j : S1x1.Idx) :
    k6_pay1 (F := Ideal) (k6_pay7 (F := Ideal) a b s) j
      = s j + ∑ r : Fin 5000, (0 - posG (∑ k : Fin 64, a (ix2 r k) * b (ix2 r k))) := by
  rw [k6pay1_eq]
  refine (cell_add_rowSum s _ j).trans (congrArg (s j + ·) (Finset.sum_congr rfl fun r _ => ?_))
  show Ideal.ofBits .f32 0x00000000#32
      - Ideal.log (Ideal.logistic (dotCol a b (ix2 r (0 : Fin 1))) + Ideal.ofBits .f32 0x26901D7D#32) = _
  rw [dotCol_apply, Ideal.ofBits_zero_f32]
  rfl

theorem k6pay2_apply (c d : Vec Ideal S5000x64 .f32) (s : Vec Ideal S1x1 .f32) (j : S1x1.Idx) :
    k6_pay2 (F := Ideal) (k6_pay6 (F := Ideal) c d) s j
      = s j + ∑ r : Fin 5000, (0 - negG (∑ k : Fin 64, c (ix2 r k) * d (ix2 r k))) := by
  unfold k6_pay2
  refine (congrFun (shapeCast_self _ shapeCasts_S1x1_S1x1) j).trans
    ((cell_add_rowSum s _ j).trans (congrArg (s j + ·) (Finset.sum_congr rfl fun r _ => ?_)))
  show Ideal.ofBits .f32 0x00000000#32
      - Ideal.log ((Ideal.ofBits .f32 0x3F800000#32 - Ideal.logistic (dotCol c d (ix2 r (0 : Fin 1))))
          + Ideal.ofBits .f32 0x26901D7D#32) = _
  rw [dotCol_apply, Ideal.ofBits_zero_f32]
  rfl

theorem k6pay3_apply (x y : Vec Ideal S1x1 .f32) (j : S1x1.Idx) :
    k6_pay3 (F := Ideal) x y j = Ideal.div (x j) cnt + Ideal.div (y j) cnt := rfl

end Cert.KernelIdeal.Val

end
-- ==== Proof.KI.LossLaw.lean ====
import proofs.«108427_j91276644975069_1_alg».proof.Proof.KI.LossSpec
import Idealize.ShloMosaic.PureOps.Ideal.Laws
import Idealize.ShloMosaic.Lib.IdealHost
import Mathlib.Algebra.BigOperators.Group.Finset.Basic
import Mathlib.Data.Fintype.BigOperators

noncomputable section

namespace Cert.LossSpec

open Idealize.ShloMosaic
open scoped BigOperators

theorem one_eq : one = ((1 : ℝ) : EReal) := by
  rw [EReal.coe_one]; exact Ideal.ofBits_one_f32

theorem cnt_eq : cnt = ((100000 : ℝ) : EReal) := by
  simp [Ideal.ofBits, Ideal.ieee, -EReal.coe_mul] <;> norm_num

theorem eps_real : ∃ e : ℝ, 0 < e ∧ eps = (e : EReal) := by
  refine ⟨(9444733 : ℝ) * (2 : ℝ) ^ (-73 : ℤ), by positivity, ?_⟩
  simp [Ideal.ofBits, Ideal.ieee, -EReal.coe_mul] <;> norm_num

-- σ(s) is a real in [0, 1] for every extended real s (0 at -∞, 1 at +∞).
theorem logistic_real (x : EReal) : ∃ l : ℝ, 0 ≤ l ∧ l ≤ 1 ∧ Ideal.logistic x = (l : EReal) := by
  induction x using EReal.rec with
  | bot => exact ⟨0, le_refl _, zero_le_one, by rw [Ideal.logistic_bot, EReal.coe_zero]⟩
  | coe r =>
    exact ⟨(1 + Real.exp (-r))⁻¹, inv_nonneg.2 (by positivity),
      inv_le_one_of_one_le₀ (by linarith [Real.exp_pos (-r)]), Ideal.logistic_coe r⟩
  | top => exact ⟨1, zero_le_one, le_refl _, by rw [Ideal.logistic_top, EReal.coe_one]⟩

theorem log_pos_real {y : ℝ} (hy : 0 < y) : Ideal.log (y : EReal) = ((Real.log y : ℝ) : EReal) := by
  rw [Ideal.log_coe, if_neg (not_le.2 hy)]

-- Both terms are logarithms of positive reals, hence reals.
theorem posG_real (s : EReal) : ∃ x : ℝ, posG s = (x : EReal) := by
  obtain ⟨e, he, hε⟩ := eps_real
  obtain ⟨l, hl0, _, hl⟩ := logistic_real s
  exact ⟨Real.log (l + e), by rw [posG, hl, hε, ← EReal.coe_add, log_pos_real (by linarith)]⟩

theorem negG_real (s : EReal) : ∃ x : ℝ, negG s = (x : EReal) := by
  obtain ⟨e, he, hε⟩ := eps_real
  obtain ⟨l, _, hl1, hl⟩ := logistic_real s
  exact ⟨Real.log (1 - l + e), by
    rw [negG, hl, hε, one_eq, ← EReal.coe_sub, ← EReal.coe_add, log_pos_real (by linarith)]⟩

def atNat (f : Fin 100000 → EReal) (i : ℕ) : EReal := if h : i < 100000 then f ⟨i, h⟩ else 0

def tile (f : Fin 100000 → EReal) (t : ℕ) : EReal := ∑ r : Fin 5000, (0 - atNat f (5000 * t + r.val))

def acc (f : Fin 100000 → EReal) : ℕ → EReal
  | 0 => 0 + tile f 0
  | n + 1 => acc f n + tile f (n + 1)

theorem atNat_of_lt (f : Fin 100000 → EReal) (i : ℕ) (h : i < 100000) : atNat f i = f ⟨i, h⟩ := dif_pos h

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Real
variable {f : Fin 100000 → EReal} {p : ℕ → ℝ} (hp : ∀ i, atNat f i = (p i : EReal))
include hp

theorem tile_real (t : ℕ) : tile f t = ((-(∑ r ∈ Finset.range 5000, p (5000 * t + r)) : ℝ) : EReal) := by
  rw [tile, ← Fin.sum_univ_eq_sum_range (fun r => p (5000 * t + r)) 5000, ← Finset.sum_neg_distrib, coe_sum]
  exact Finset.sum_congr rfl fun r _ => by rw [hp, zero_sub, EReal.coe_neg]

theorem acc_real : ∀ n : ℕ, acc f n = ((-(∑ i ∈ Finset.range (5000 * (n + 1)), p i) : ℝ) : EReal)
  | 0 => by rw [acc, zero_add, tile_real hp]; simp
  | n + 1 => by
    rw [acc, acc_real n, tile_real hp, ← EReal.coe_add,
      show 5000 * (n + 1 + 1) = 5000 * (n + 1) + 5000 by ring, Finset.sum_range_add, neg_add]

theorem sum_real : ∑ r : Fin 100000, f r = ((∑ i ∈ Finset.range 100000, p i : ℝ) : EReal) := by
  rw [← Fin.sum_univ_eq_sum_range p 100000, coe_sum]
  exact Finset.sum_congr rfl fun r _ => by rw [← hp, atNat_of_lt f r.val r.isLt]

end Real

-- For real terms negation and division by the count pass through the sums: the last cell over the count is minus the mean.
theorem div_acc (f : Fin 100000 → EReal) (hf : ∀ i, ∃ x : ℝ, f i = (x : EReal)) :
    Ideal.div (acc f 19) cnt = -(Ideal.div (∑ r : Fin 100000, f r) cnt) := by
  have h : ∀ i, ∃ x : ℝ, atNat f i = (x : EReal) := fun i => by
    unfold atNat; split
    · exact hf _
    · exact ⟨0, EReal.coe_zero.symm⟩
  choose p hp using h
  have hc : (100000 : ℝ) ≠ 0 := by norm_num
  rw [acc_real hp 19, sum_real hp, cnt_eq, Ideal.div_coe hc, Ideal.div_coe hc, ← EReal.coe_mul, ← EReal.coe_mul,
    ← EReal.coe_neg, show 5000 * (19 + 1) = 100000 by norm_num, neg_mul]

theorem loss_of_tiles (zsp zdp zsn zdn : Tab) :
    Ideal.div (acc (fun r => posG (rowDot zsp zdp r)) 19) cnt + Ideal.div (acc (fun r => negG (rowDot zsn zdn r)) 19) cnt
      = loss zsp zdp zsn zdn := by
  rw [div_acc _ fun _ => posG_real _, div_acc _ fun _ => negG_real _]
  rfl

end Cert.LossSpec

end
-- ==== Proof.KI.Val6.lean ====
import proofs.«108427_j91276644975069_1_alg».proof.Proof.KI.R6
import proofs.«108427_j91276644975069_1_alg».proof.Proof.KI.PayLoss
import proofs.«108427_j91276644975069_1_alg».proof.Proof.KI.LossLaw
import Idealize.ShloMosaic.Lib.Pipeline.Value
import Idealize.ShloMosaic.Lib.ValueIdx
import Idealize.ShloMosaic.Lib.Tactic

noncomputable section

namespace Cert.KernelIdeal.Val

open Cert.KernelIdeal Cert.KernelIdeal.Gen Cert.KernelIdeal.Fr
open Cert.LossSpec (Tab at2 rowDot posG negG loss tile acc atNat_of_lt loss_of_tiles)
open Idealize.ShloMosaic Idealize.ShloMosaic.TcCoe
open Idealize.ShloMosaic.Pipeline (Dat Cfg Window)
open Idealize.ShloMosaic.Tactic
open Idealize.ShloMosaic.ValueIdx
open scoped BigOperators

theorem hz6 : (![0, 0] : Fin 2 → Nat) = fun _ => 0 := funext fun a => by fin_cases a <;> rfl

section Pieces
variable {F : FTy → Type} [FloatOps F] (c : Dev nD) (i : grid6.Coords)
  (arg1 : Memref sig .tc .vmem S5000x64 .f32) (harg1 : arg1.IsWhole) (arg2 : Memref sig .tc .vmem S5000x64 .f32) (harg2 : arg2.IsWhole)
  (arg3 : Memref sig .tc .vmem S5000x64 .f32) (harg3 : arg3.IsWhole) (arg4 : Memref sig .tc .vmem S5000x64 .f32) (harg4 : arg4.IsWhole)
  (arg5 : Memref sig .tc .vmem S1x1 .f32) (harg5 : arg5.IsWhole) (arg6 : Memref sig .tc .vmem S1x1 .f32) (harg6 : arg6.IsWhole)
  (arg7 : Memref sig .tc .vmem S1x1 .f32) (harg7 : arg7.IsWhole) (x0 x1 x2 x3 : Vec F S5000x64 .f32) (xs0 xs1 : Vec F S1x1 .f32)

theorem piece_A (hc0 : cond6_0 i) (hc1 : ¬cond6_1 i) :
    sout6_A_0 c i arg1 harg1 arg2 harg2 arg3 harg3 arg4 harg4 arg5 harg5 arg6 harg6 arg7 harg7 hc0 hc1 x0 x1 x2 x3 = k6_pay1 (k6_pay7 x0 x1 (k6_pay4 (F := F)))
    ∧ sout6_A_1 c i arg1 harg1 arg2 harg2 arg3 harg3 arg4 harg4 arg5 harg5 arg6 harg6 arg7 harg7 hc0 hc1 x0 x1 x2 x3 = k6_pay2 (k6_pay6 x2 x3) (k6_pay5 (F := F)) := by
  unfold sout6_A_0 sout6_A_1
  rw [View.read_writes_eq_canon _ _ _ (fun _ => scover6_A_0 ..),
    View.read_writes_eq_canon _ _ _ (fun _ => scover6_A_1 ..)]
  unfold kernelRun6_A
  dsimp only
  sl_unfold_words
  simp only [View.canon_cons_unit_zero (S := S1x1) hz6, View.readCov_unit_zero (S := S1x1) _ hz6, View.readAt_eq_ld, harg1.read_unread, harg2.read_unread, harg3.read_unread, harg4.read_unread, harg6.read_unread, harg7.read_unread, View.ld_unit_zero (S := S5000x64) hz6, View.ld_unit_zero (S := S1x1) hz6, and_self]

theorem piece_B (hc0 : ¬cond6_0 i) (hc1 : ¬cond6_1 i) :
    sout6_B_0 c i arg1 harg1 arg2 harg2 arg3 harg3 arg4 harg4 arg5 harg5 arg6 harg6 arg7 harg7 hc0 hc1 x0 x1 x2 x3 xs0 xs1 = k6_pay1 (k6_pay7 x0 x1 xs0)
    ∧ sout6_B_1 c i arg1 harg1 arg2 harg2 arg3 harg3 arg4 harg4 arg5 harg5 arg6 harg6 arg7 harg7 hc0 hc1 x0 x1 x2 x3 xs0 xs1 = k6_pay2 (k6_pay6 x2 x3) xs1 := by
  unfold sout6_B_0 sout6_B_1
  rw [View.read_writes_eq_canon _ _ _ (fun _ => scover6_B_0 ..),
    View.read_writes_eq_canon _ _ _ (fun _ => scover6_B_1 ..)]
  unfold kernelRun6_B
  dsimp only
  sl_unfold_words
  simp only [View.canon_unit_zero (S := S1x1) hz6, View.readAt_eq_ld, harg1.read_unread, harg2.read_unread, harg3.read_unread, harg4.read_unread, harg6.read_unread, harg7.read_unread, View.ld_unit_zero (S := S5000x64) hz6, View.ld_unit_zero (S := S1x1) hz6, and_self]

theorem piece_C (hc0 : ¬cond6_0 i) (hc1 : cond6_1 i) :
    sout6_C_0 c i arg1 harg1 arg2 harg2 arg3 harg3 arg4 harg4 arg5 harg5 arg6 harg6 arg7 harg7 hc0 hc1 x0 x1 x2 x3 xs0 xs1 = k6_pay1 (k6_pay7 x0 x1 xs0)
    ∧ sout6_C_1 c i arg1 harg1 arg2 harg2 arg3 harg3 arg4 harg4 arg5 harg5 arg6 harg6 arg7 harg7 hc0 hc1 x0 x1 x2 x3 xs0 xs1 = k6_pay2 (k6_pay6 x2 x3) xs1
    ∧ out6_C_4 c i arg1 harg1 arg2 harg2 arg3 harg3 arg4 harg4 arg5 harg5 arg6 harg6 arg7 harg7 hc0 hc1 x0 x1 x2 x3 xs0 xs1 = k6_pay3 (k6_pay1 (k6_pay7 x0 x1 xs0)) (k6_pay2 (k6_pay6 x2 x3) xs1) := by
  unfold sout6_C_0 sout6_C_1 out6_C_4
  rw [View.read_writes_eq_canon _ _ _ (fun _ => scover6_C_0 ..),
    View.read_writes_eq_canon _ _ _ (fun _ => scover6_C_1 ..),
    View.read_writes_eq_canon _ _ _ (fun _ => cover6_C_4 ..)]
  unfold kernelRun6_C
  dsimp only
  sl_unfold_words
  simp only [View.canon_unit_zero (S := S1x1) hz6, View.readCov_unit_zero (S := S1x1) _ hz6, View.readAt_eq_ld, harg1.read_unread, harg2.read_unread, harg3.read_unread, harg4.read_unread, harg6.read_unread, harg7.read_unread, View.ld_unit_zero (S := S5000x64) hz6, View.ld_unit_zero (S := S1x1) hz6, and_self]

end Pieces

variable (V : (c : Dev nD) → (b : Ref sig .tc) → Buf (Elt Ideal) ((c : Thread nD τ).loc b))

abbrev prev6 (c : Dev nD) (t : Fin cfg6.N) : Vec Ideal S1x1 .f32 × Vec Ideal S1x1 .f32 × Vec Ideal S1x1 .f32 :=
  outsAt6 V c (t.val - 1) (Nat.lt_of_le_of_lt (Nat.sub_le _ _) t.isLt)

theorem outs6_A (c : Dev nD) (t : Fin cfg6.N) (h0 : t.val % 20 = 0) (h1 : ¬t.val % 20 = 19) :
    (outsAt6 V c t.val t.isLt).2.1 = k6_pay1 (k6_pay7 (iblk6 V c 0 t) (iblk6 V c 1 t) (k6_pay4 (F := Ideal)))
    ∧ (outsAt6 V c t.val t.isLt).2.2 = k6_pay2 (k6_pay6 (iblk6 V c 2 t) (iblk6 V c 3 t)) (k6_pay5 (F := Ideal)) := by
  rw [outsAt6_A V c t h0 h1]
  dsimp only
  exact piece_A ..

-- From the second tile on each cell updates the previous tile's; the last tile's result combines the two updated cells.
theorem outs6_BC (c : Dev nD) (t : Fin cfg6.N) (h0 : ¬t.val % 20 = 0) :
    (outsAt6 V c t.val t.isLt).2.1 = k6_pay1 (k6_pay7 (iblk6 V c 0 t) (iblk6 V c 1 t) (prev6 V c t).2.1)
    ∧ (outsAt6 V c t.val t.isLt).2.2 = k6_pay2 (k6_pay6 (iblk6 V c 2 t) (iblk6 V c 3 t)) (prev6 V c t).2.2
    ∧ (t.val % 20 = 19 → (outsAt6 V c t.val t.isLt).1
        = k6_pay3 (outsAt6 V c t.val t.isLt).2.1 (outsAt6 V c t.val t.isLt).2.2) := by
  by_cases h1 : t.val % 20 = 19
  · rw [outsAt6_C V c t h0 h1]
    dsimp only
    exact ⟨(piece_C ..).1, (piece_C ..).2.1, fun _ => (piece_C ..).2.2.trans (congrArg₂ k6_pay3 (piece_C ..).1.symm (piece_C ..).2.1.symm)⟩
  · rw [outsAt6_B V c t h0 h1]
    dsimp only
    exact ⟨(piece_B ..).1, (piece_B ..).2, fun h => absurd h h1⟩

theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

theorem rows_lt6 (t : Fin cfg6.N) (r : Fin 5000) : 5000 * t.val + r.val < 100000 := by
  have hN : grid6.N = 20 := N_6
  have ht : t.val < grid6.N := t.isLt
  have hr : r.val < 5000 := r.isLt
  omega

-- The index whose row is 5000 t + r and whose entry is k.
theorem emb_at2 (x : (⟨2, ![100000, 64]⟩ : Shape).Idx) (i0 i1 : ℕ) (t : Fin cfg6.N) (r : Fin 5000) (k : Fin 64)
    (h0 : i0 = t.val) (h1 : i1 = 0) (hx0 : (x 0).val = i0 * 5000 + 1 * r.val) (hx1 : (x 1).val = i1 * 64 + 1 * k.val) :
    x = at2 ⟨5000 * t.val + r.val, rows_lt6 t r⟩ k := by
  funext a; apply Fin.ext
  match a with
  | ⟨0, _⟩ => show (x 0).val = 5000 * t.val + r.val; omega
  | ⟨1, _⟩ => show (x 1).val = k.val; omega

-- Tile t's block of each table is the table's rows 5000 t, …, 5000 t + 4999.
theorem blk6_apply (c : Dev nD) (t : Fin cfg6.N) (r : Fin 5000) (k : Fin 64) :
    iblk6 V c 0 t (ix2 r k) = V c main_v92 (at2 ⟨5000 * t.val + r.val, rows_lt6 t r⟩ k)
    ∧ iblk6 V c 1 t (ix2 r k) = V c main_v99 (at2 ⟨5000 * t.val + r.val, rows_lt6 t r⟩ k)
    ∧ iblk6 V c 2 t (ix2 r k) = V c main_v106 (at2 ⟨5000 * t.val + r.val, rows_lt6 t r⟩ k)
    ∧ iblk6 V c 3 t (ix2 r k) = V c main_v113 (at2 ⟨5000 * t.val + r.val, rows_lt6 t r⟩ k) := by
  obtain ⟨e00, e01, e10, e11, e20, e21, e30, e31, -, -⟩ := idx6 t
  exact ⟨congrArg (V c main_v92) (emb_at2 _ _ _ t r k e00 e01 rfl rfl), congrArg (V c main_v99) (emb_at2 _ _ _ t r k e10 e11 rfl rfl),
    congrArg (V c main_v106) (emb_at2 _ _ _ t r k e20 e21 rfl rfl), congrArg (V c main_v113) (emb_at2 _ _ _ t r k e30 e31 rfl rfl)⟩

-- A tile's sum over blocks that are rows 5000 t … of two tables is the tile's share of the family's terms.
theorem tile_eq (g : EReal → EReal) (zs zd : Tab) (a b : Vec Ideal S5000x64 .f32) (t : Fin cfg6.N)
    (ha : ∀ r k, a (ix2 r k) = zs (at2 ⟨5000 * t.val + r.val, rows_lt6 t r⟩ k))
    (hb : ∀ r k, b (ix2 r k) = zd (at2 ⟨5000 * t.val + r.val, rows_lt6 t r⟩ k)) :
    ∑ r : Fin 5000, (0 - g (∑ k : Fin 64, a (ix2 r k) * b (ix2 r k))) = tile (fun r => g (rowDot zs zd r)) t.val :=
  Finset.sum_congr rfl fun r _ => by
    rw [atNat_of_lt _ _ (rows_lt6 t r)]
    exact congrArg (fun z => (0 : EReal) - g z) (Finset.sum_congr rfl fun k _ => by rw [ha, hb])

theorem step6 (c : Dev nD) (t : Fin cfg6.N) (sp sn : Vec Ideal S1x1 .f32) (xp xn : EReal)
    (hp : ∀ j, sp j = xp) (hn : ∀ j, sn j = xn) (j : S1x1.Idx) :
    k6_pay1 (k6_pay7 (iblk6 V c 0 t) (iblk6 V c 1 t) sp) j
        = xp + tile (fun r => posG (rowDot (V c main_v92) (V c main_v99) r)) t.val
    ∧ k6_pay2 (k6_pay6 (iblk6 V c 2 t) (iblk6 V c 3 t)) sn j
        = xn + tile (fun r => negG (rowDot (V c main_v106) (V c main_v113) r)) t.val := by
  rw [k6pay7_apply, k6pay2_apply, hp, hn]
  exact ⟨congrArg (xp + ·) (tile_eq _ _ _ _ _ t (fun r k => (blk6_apply V c t r k).1) fun r k => (blk6_apply V c t r k).2.1),
    congrArg (xn + ·) (tile_eq _ _ _ _ _ t (fun r k => (blk6_apply V c t r k).2.2.1) fun r k => (blk6_apply V c t r k).2.2.2)⟩

-- By induction on the tile, the running cells hold the tile-by-tile accumulations of the two families.
theorem accs6 (c : Dev nD) : ∀ (n : ℕ) (h : n < cfg6.N) (j : S1x1.Idx),
    (outsAt6 V c n h).2.1 j = acc (fun r => posG (rowDot (V c main_v92) (V c main_v99) r)) n
    ∧ (outsAt6 V c n h).2.2 j = acc (fun r => negG (rowDot (V c main_v106) (V c main_v113) r)) n
  | 0, h, j => by
    obtain ⟨e1, e2⟩ := outs6_A V c ⟨0, h⟩ rfl (by show ¬(0 : ℕ) % 20 = 19; omega)
    rw [e1, e2]
    exact step6 V c ⟨0, h⟩ _ _ 0 0 k6pay4_apply k6pay5_apply j
  | n + 1, h, j => by
    have hlt : n + 1 < 20 := lt_of_lt_of_eq h (show cfg6.N = 20 from N_6)
    obtain ⟨e1, e2, -⟩ := outs6_BC V c ⟨n + 1, h⟩ (by show ¬(n + 1) % 20 = 0; omega)
    rw [e1, e2]
    exact step6 V c ⟨n + 1, h⟩ _ _ _ _ (fun j => (accs6 c n (Nat.lt_of_succ_lt h) j).1)
      (fun j => (accs6 c n (Nat.lt_of_succ_lt h) j).2) j

theorem last6 (c : Dev nD) (t : Fin cfg6.N) (h19 : t.val % 20 = 19) (j : S1x1.Idx) :
    (outsAt6 V c t.val t.isLt).1 j = loss (V c main_v92) (V c main_v99) (V c main_v106) (V c main_v113) := by
  have hN : grid6.N = 20 := N_6
  have ht : t.val < grid6.N := t.isLt
  have hv : t.val = 19 := by omega
  rw [(outs6_BC V c t (by omega)).2.2 h19, k6pay3_apply, (accs6 V c _ _ j).1, (accs6 V c _ _ j).2, hv]
  exact loss_of_tiles ..

theorem cellFlushed6 (c : Dev nD) (t : Fin cfg6.N) (hf : (cfg6.win 4).flush t = true) :
    (dat6 (F := Ideal) V c).flushed 4 t
      = ((cfg6.win 4).blk t).view.read (Elt Ideal) (fun _ => loss (V c main_v92) (V c main_v99) (V c main_v106) (V c main_v113)) := by
  show (cfg6.win 4).cut (grid6.coords t) ((dat6 V c).after 4 t) = _
  rw [after6_4]
  exact funext (last6 V c t ((flush6_4 t).mp hf))

theorem cellCover6 (i : S1x1.Idx) :
    ∃ t : Fin cfg6.N, (cfg6.win 4).flush t = true ∧ i ∈ ((cfg6.win 4).blk t).view.set := by
  have hi0 : (i 0).val < 1 := (i 0).isLt
  have hi1 : (i 1).val < 1 := (i 1).isLt
  have ht : 19 < cfg6.N := by show 19 < grid6.N; rw [N_6]; omega
  obtain ⟨-, -, -, -, -, -, -, -, e40, e41⟩ := idx6 ⟨19, ht⟩
  refine ⟨⟨19, ht⟩, (flush6_4 ⟨19, ht⟩).mpr rfl, ?_⟩
  show i ∈ ((View.whole main_v114).slice (win6_4.rect ⟨19, ht⟩)).set
  rw [View.set_slice_whole, Rect.mem_set_unit]
  intro a
  match a with
  | ⟨0, _⟩ =>
    show win6_4.index ⟨19, ht⟩ (0 : Fin 2) * 1 ≤ (i 0).val ∧ (i 0).val < win6_4.index ⟨19, ht⟩ (0 : Fin 2) * 1 + 1
    rw [e40]; omega
  | ⟨1, _⟩ =>
    show win6_4.index ⟨19, ht⟩ (1 : Fin 2) * 1 ≤ (i 1).val ∧ (i 1).val < win6_4.index ⟨19, ht⟩ (1 : Fin 2) * 1 + 1
    rw [e41]; omega

theorem arr6 (c : Dev nD) :
    (dat6 (F := Ideal) V c).arrAt 4 cfg6.N = fun _ => loss (V c main_v92) (V c main_v99) (V c main_v106) (V c main_v113) :=
  (dat6 (F := Ideal) V c).arrAt_eq_of_cover 4 _ (cellFlushed6 V c) cellCover6

end Cert.KernelIdeal.Val

end
-- ==== Proof.Ref.Loss.lean ====
import proofs.«108427_j91276644975069_1_alg».proof.Proof.RefGen
import proofs.«108427_j91276644975069_1_alg».proof.Proof.KI.LossSpec
import Idealize.ShloMosaic.PureOps.Ideal
import Idealize.ShloMosaic.PureOps.Ideal.Laws
import Idealize.ShloMosaic.Lib.ValueIdx

noncomputable section

open scoped BigOperators

namespace Cert.RefBridge

open Cert.ReferenceIdeal Cert.ReferenceIdeal.Gen Cert.ReferenceIdeal.Read
open Cert.LossSpec (at2 rowDot posG negG mean loss)
open Idealize.ShloMosaic Idealize.ShloMosaic.ValueIdx

theorem one_f32 : Ideal.ofBits .f32 0x3F800000#32 = 1 := by
  simp [Ideal.ofBits, Ideal.ieee, -EReal.coe_mul]; norm_num

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (xl x8 x9 : (⟨S2x100000, .i32⟩ : BufTy).Contents (Elt Ideal)) (r : Fin 100000)

theorem row_sum_pos : ∑ k : Fin 64, val_main_v147 (F := Ideal) x0 x1 x2 x3 x4 x5 xl (idx_main_v148 (ix1 r) k)
    = rowDot (val_main_v139 (F := Ideal) x0 x1 x2 x3 x4 x5 xl) (val_main_v146 (F := Ideal) x0 x1 x2 x3 x4 x5 xl) r := by
  refine Finset.sum_congr rfl fun k _ => ?_
  rw [val_main_v147_apply, show idx_main_v148 (ix1 r) k = at2 r k from
    funext fun a => Fin.ext (by match a with | ⟨0, _⟩ => rfl | ⟨1, _⟩ => rfl)]
  rfl

theorem row_sum_neg : ∑ k : Fin 64, val_main_v169 (F := Ideal) x0 x1 x2 x3 x4 x5 xl (idx_main_v170 (ix1 r) k)
    = rowDot (val_main_v161 (F := Ideal) x0 x1 x2 x3 x4 x5 xl) (val_main_v168 (F := Ideal) x0 x1 x2 x3 x4 x5 xl) r := by
  refine Finset.sum_congr rfl fun k _ => ?_
  rw [val_main_v169_apply, show idx_main_v170 (ix1 r) k = at2 r k from
    funext fun a => Fin.ext (by match a with | ⟨0, _⟩ => rfl | ⟨1, _⟩ => rfl)]
  rfl

-- The reference spells σ(s) as 1 / (1 + e^(-s)); read back to the gathered rows, its logarithm is the family's term.
theorem pos_row : val_main_v179 (F := Ideal) x0 x1 x2 x3 x4 x5 xl (ix1 r)
    = posG (rowDot (val_main_v139 (F := Ideal) x0 x1 x2 x3 x4 x5 xl) (val_main_v146 (F := Ideal) x0 x1 x2 x3 x4 x5 xl) r) := by
  rw [val_main_v179_apply, val_main_v178_apply, val_main_v154_apply, val_main_v153_apply, val_main_cst_29_apply,
    val_main_v152_apply, val_main_v151_apply, val_main_cst_28_apply, val_main_v150_apply, val_main_v149_apply,
    val_main_v148_apply, val_main_cst_27_apply, val_main_v177_apply, val_main_cst_37_apply, row_sum_pos]
  simp only [Ideal.hostUnary_log_def, Ideal.hostUnary_exp_def, Ideal.addf_def, Ideal.hostDivf_def, Ideal.hostNegf_def,
    Ideal.negf_def, Ideal.ofBits_def, Ideal.ofBits_zero_f32, zero_add, one_f32, posG, Ideal.logistic]

theorem neg_row : val_main_v187 (F := Ideal) x0 x1 x2 x3 x4 x5 xl (ix1 r)
    = negG (rowDot (val_main_v161 (F := Ideal) x0 x1 x2 x3 x4 x5 xl) (val_main_v168 (F := Ideal) x0 x1 x2 x3 x4 x5 xl) r) := by
  rw [val_main_v187_apply, val_main_v186_apply, val_main_v184_apply, val_main_v183_apply, val_main_cst_40_apply,
    val_main_v176_apply, val_main_v175_apply, val_main_cst_36_apply, val_main_v174_apply, val_main_v173_apply,
    val_main_cst_35_apply, val_main_v172_apply, val_main_v171_apply, val_main_v170_apply, val_main_cst_34_apply,
    val_main_v185_apply, val_main_cst_41_apply, row_sum_neg]
  simp only [Ideal.hostUnary_log_def, Ideal.hostUnary_exp_def, Ideal.addf_def, Ideal.subf_def, Ideal.hostDivf_def,
    Ideal.hostNegf_def, Ideal.negf_def, Ideal.ofBits_def, Ideal.ofBits_zero_f32, zero_add, one_f32, negG, Ideal.logistic]

theorem ref_loss : val_main_v191 (F := Ideal) x0 x1 x2 x3 x4 x5 x8 x9
    = fun _ => loss (val_main_v139 (F := Ideal) x0 x1 x2 x3 x4 x5 x8) (val_main_v146 (F := Ideal) x0 x1 x2 x3 x4 x5 x8)
        (val_main_v161 (F := Ideal) x0 x1 x2 x3 x4 x5 x9) (val_main_v168 (F := Ideal) x0 x1 x2 x3 x4 x5 x9) := by
  funext i
  rw [val_main_v191_apply, val_main_v182_apply, val_main_v181_apply, val_main_v180_apply, val_main_cst_38_apply,
    val_main_cst_39_apply, val_main_v190_apply, val_main_v189_apply, val_main_v188_apply, val_main_cst_42_apply,
    val_main_cst_43_apply, sum_idx1, sum_idx1]
  simp only [pos_row, neg_row]
  simp only [Ideal.addf_def, Ideal.hostDivf_def, Ideal.hostNegf_def, Ideal.negf_def, Ideal.ofBits_def,
    Ideal.ofBits_zero_f32, zero_add, loss, mean]

end Cert.RefBridge

end
-- ==== Proof.Bridge.L4.lean ====
import proofs.«108427_j91276644975069_1_alg».proof.Proof.RefGen
import proofs.«108427_j91276644975069_1_alg».proof.Proof.KI.Fold6
import proofs.«108427_j91276644975069_1_alg».proof.Proof.KI.Val6
import proofs.«108427_j91276644975069_1_alg».proof.Proof.Ref.Loss
import proofs.«108427_j91276644975069_1_alg».proof.Proof.Bridge.L2
import Idealize.ShloMosaic.Lib.StableHlo.Run

noncomputable section

namespace Cert.Bridge

open Idealize.ShloMosaic Idealize.ShloMosaic.TcCoe Idealize.SL.Sem Idealize.ShloMosaic.StableHlo
open Cert.KernelIdeal Cert.KernelIdeal.Fr Cert.KernelIdeal.Val Cert.ReferenceIdeal.Read

variable (m : (ℓ : Loc nD τ sig) → Buf (Elt Ideal) ℓ) (ρ : Dev nD → PrngReg) (c : Dev nD)

section
variable (W : Valuation τ sig (Elt Ideal))

-- From any contents, each of the four row tables is the gather of the means' rows at one row of a label table.
theorem gather_v92 : StableHlo.after (Gen.hostOps6 (F := Ideal)) W (Proc.devRef .tc main_v92)
    = Host.gather Cert.ReferenceIdeal.gather_S100000x64_S100000x1_S100000x64_1_0_n_n_0_1_164 (W (Proc.devRef .tc main_v60)) (val_main_v138 (F := Ideal) (W (Proc.devRef .tc main_arg8))) := by
  after_results_simp
  rfl

theorem gather_v99 : StableHlo.after (Gen.hostOps6 (F := Ideal)) W (Proc.devRef .tc main_v99)
    = Host.gather Cert.ReferenceIdeal.gather_S100000x64_S100000x1_S100000x64_1_0_n_n_0_1_164 (W (Proc.devRef .tc main_v60)) (val_main_v145 (F := Ideal) (W (Proc.devRef .tc main_arg8))) := by
  after_results_simp
  rfl

theorem gather_v106 : StableHlo.after (Gen.hostOps6 (F := Ideal)) W (Proc.devRef .tc main_v106)
    = Host.gather Cert.ReferenceIdeal.gather_S100000x64_S100000x1_S100000x64_1_0_n_n_0_1_164 (W (Proc.devRef .tc main_v60)) (val_main_v160 (F := Ideal) (W (Proc.devRef .tc main_arg9))) := by
  after_results_simp
  rfl

theorem gather_v113 : StableHlo.after (Gen.hostOps6 (F := Ideal)) W (Proc.devRef .tc main_v113)
    = Host.gather Cert.ReferenceIdeal.gather_S100000x64_S100000x1_S100000x64_1_0_n_n_0_1_164 (W (Proc.devRef .tc main_v60)) (val_main_v167 (F := Ideal) (W (Proc.devRef .tc main_arg9))) := by
  after_results_simp
  rfl

end

theorem W10_mu : W10 m ρ c (Proc.devRef .tc main_v60)
    = val_main_v85 (F := Ideal) (a0 m c) (a1 m c) (a2 m c) (a3 m c) (a4 m c) (a5 m c) :=
  (W10_of_ne m ρ c main_v60 (by decide)).trans <| (W9_of m ρ c main_v60 (by decide)).trans <|
    (W8_of_ne m ρ c main_v60 (by decide)).trans (st_mu m ρ c)

theorem W10_arg8 : W10 m ρ c (Proc.devRef .tc main_arg8) = a8 m c :=
  (W11_of m ρ c main_arg8 (by decide)).symm.trans (W11_main_arg8 m ρ c)

theorem W10_arg9 : W10 m ρ c (Proc.devRef .tc main_arg9) = a9 m c :=
  (W11_of m ρ c main_arg9 (by decide)).symm.trans (W11_main_arg9 m ρ c)

-- The four gathered tables are the reference's gathers of its own means at the same ids.
theorem st_tabs :
    V11 m ρ c main_v92 = val_main_v139 (F := Ideal) (a0 m c) (a1 m c) (a2 m c) (a3 m c) (a4 m c) (a5 m c) (a8 m c)
    ∧ V11 m ρ c main_v99 = val_main_v146 (F := Ideal) (a0 m c) (a1 m c) (a2 m c) (a3 m c) (a4 m c) (a5 m c) (a8 m c)
    ∧ V11 m ρ c main_v106 = val_main_v161 (F := Ideal) (a0 m c) (a1 m c) (a2 m c) (a3 m c) (a4 m c) (a5 m c) (a9 m c)
    ∧ V11 m ρ c main_v113 = val_main_v168 (F := Ideal) (a0 m c) (a1 m c) (a2 m c) (a3 m c) (a4 m c) (a5 m c) (a9 m c) :=
  ⟨(gather_v92 _).trans (by rw [W10_mu m ρ c, W10_arg8 m ρ c]; rfl), (gather_v99 _).trans (by rw [W10_mu m ρ c, W10_arg8 m ρ c]; rfl),
    (gather_v106 _).trans (by rw [W10_mu m ρ c, W10_arg9 m ρ c]; rfl), (gather_v113 _).trans (by rw [W10_mu m ρ c, W10_arg9 m ρ c]; rfl)⟩

theorem st_loss : W13 m ρ c (Proc.devRef .tc Cert.KernelIdeal.main_v115)
    = Cert.ReferenceIdeal.Read.val_main_v191 (F := Ideal) (a0 m c) (a1 m c) (a2 m c) (a3 m c) (a4 m c) (a5 m c) (a8 m c) (a9 m c) := by
  rw [Cert.RefBridge.ref_loss]
  show StableHlo.after (Gen.hostOps7 (F := Ideal)) (W12 m ρ c) (Proc.devRef .tc main_v115) = _
  after_results
  rw [show W12 m ρ c (Proc.devRef .tc main_v114) = (dat6 (V11 m ρ) c).arrAt 4 cfg6.N from W12_arr m ρ c 4,
    arr6, (st_tabs m ρ c).1, (st_tabs m ρ c).2.1, (st_tabs m ρ c).2.2.1, (st_tabs m ρ c).2.2.2]
  rfl

end Cert.Bridge

end
-- ==== Proof.lean ====
import proofs.«108427_j91276644975069_1_alg».proof.Defs
import proofs.«108427_j91276644975069_1_alg».proof.Proof.Gen.Kernel
import proofs.«108427_j91276644975069_1_alg».proof.Proof.Gen.KernelIdeal
import proofs.«108427_j91276644975069_1_alg».proof.Proof.Gen.ReferenceIdeal
import proofs.«108427_j91276644975069_1_alg».proof.Proof.Gen.Pre_finite_inputs
import proofs.«108427_j91276644975069_1_alg».proof.Proof.RefGen
import proofs.«108427_j91276644975069_1_alg».proof.Proof.KI.Run
import proofs.«108427_j91276644975069_1_alg».proof.Proof.K.Run
import proofs.«108427_j91276644975069_1_alg».proof.Proof.Bridge.L2
import proofs.«108427_j91276644975069_1_alg».proof.Proof.Bridge.L3
import proofs.«108427_j91276644975069_1_alg».proof.Proof.Bridge.L4

noncomputable section

namespace Cert.Proof

open Idealize.ShloMosaic Idealize.ShloMosaic.TcCoe Idealize.SL.Sem Cert.KernelIdeal Cert.KernelIdeal.Fr Cert.Bridge Cert.ReferenceIdeal.Read

theorem frame_k : Cert.frame_Kernel := fun m ρ _ => Cert.Kernel.Fr.frame m ρ

theorem frame_ki : Cert.frame_KernelIdeal := fun m ρ _ => frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- At the extended reals the mean head, the clamped log-std head and the loss are the reference's stages of the same arguments. -/
theorem algebraic : Cert.algebraic_KernelIdeal_ReferenceIdeal := by
  intro m ρ m' ρ' _ hagree
  refine ⟨fun c => W13 m ρ c (Proc.devRef .tc main_v60), fun c => W13 m ρ c (Proc.devRef .tc main_v77),
    fun c => W13 m ρ c (Proc.devRef .tc main_v115), ?_, ?_⟩
  · refine (θ_run defs _ _).mono (fun r h c => ?_) (run_all m ρ)
    exact ⟨h c _ (mem_uc main_v60 (by decide)), h c _ (mem_uc main_v77 (by decide)), h c _ (mem_uc main_v115 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c)⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7, e8, e9⟩ := hagree c
    refine ⟨h0.trans ?_, h1.trans ?_, h2.trans ?_, hargs⟩
    · rw [val_main_v85_eq, e0, e1, e2, e3, e4, e5]
      exact ((W13_main_v60 m ρ c).trans ((W7_arr m ρ c 4).symm.trans (st_mu m ρ c))).symm
    · rw [val_main_v124_eq, e0, e1, e2, e3, e6, e7]
      exact ((W13_main_v77 m ρ c).trans ((W10_arr m ρ c 4).symm.trans (st_ls m ρ c))).symm
    · rw [val_main_v191_eq, e0, e1, e2, e3, e4, e5, e8, e9]
      exact (st_loss m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
